-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16384x1024 : Shape := ⟨3, ![2, 16384, 1024]⟩
abbrev S1024 : Shape := ⟨1, ![1024]⟩
abbrev S_ : Shape := ⟨0, ![]⟩

class Facts : Prop where
  bcast_S_S2x16384x1024 : S_.BroadcastsInDim S2x16384x1024 (![] : Fin 0 → Fin S2x16384x1024.rank)
  reducesTo_S2x16384x1024_S_d0_1_2 : S2x16384x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024 .f32) (main_arg12 : FVec F S1024 .f32) (main_arg13 : FVec F S1024 .f32) (main_arg14 : FVec F S1024 .f32) (main_arg15 : FVec F S1024 .f32) (main_arg16 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_v48 main_v49 main_v50

def fn_part1 {F : FTy → Type} [FloatOps F] (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S2x16384x1024 .f32) (main_arg1 : FVec F S2x16384x1024 .f32) (main_arg2 : FVec F S2x16384x1024 .f32) (main_arg3 : FVec F S1024 .f32) (main_arg4 : FVec F S1024 .f32) (main_arg5 : FVec F S1024 .f32) (main_arg6 : FVec F S1024 .f32) (main_arg7 : FVec F S1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_arg14 : FVec F S1024 .f32) (main_arg15 : FVec F S1024 .f32) (main_arg16 : FVec F S1024 .f32) : IVec S_ 1 :=
  let main_v0 : FVec F S2x16384x1024 .f32 := Host.absf main_arg0
  let main_cst : FVec F S_ .f32 := constant S_ .f32 0x7F800000#32
  let main_v1 : FVec F S2x16384x1024 .f32 := broadcastInDim S2x16384x1024 ![] bcast_S_S2x16384x1024 main_cst
  let main_v2 : IVec S2x16384x1024 1 := cmpf .olt main_v0 main_v1
  let main_c : IVec S_ 1 := constantI S_ 1 1#1
  let main_v3 : IVec S_ 1 := (fun x v => Host.reduce IntOp.andi x v reducesTo_S2x16384x1024_S_d0_1_2 h_S_) main_v2 main_c
  let main_v4 : FVec F S2x16384x1024 .f32 := Host.absf main_arg1
  let main_cst_0 : FVec F S_ .f32 := constant S_ .f32 0x7F800000#32
  let main_v5 : FVec F S2x16384x1024 .f32 := broadcastInDim S2x16384x1024 ![] bcast_S_S2x16384x1024 main_cst_0
  let main_v6 : IVec S2x16384x1024 1 := cmpf .olt main_v4 main_v5
  let main_c_1 : IVec S_ 1 := constantI S_ 1 1#1
  let main_v7 : IVec S_ 1 := (fun x v => Host.reduce IntOp.andi x v reducesTo_S2x16384x1024_S_d0_1_2 h_S_) main_v6 main_c_1
  let main_v8 : IVec S_ 1 := andi main_v3 main_v7
  let main_v9 : FVec F S2x16384x1024 .f32 := Host.absf main_arg2
  let main_cst_2 : FVec F S_ .f32 := constant S_ .f32 0x7F800000#32
  let main_v10 : FVec F S2x16384x1024 .f32 := broadcastInDim S2x16384x1024 ![] bcast_S_S2x16384x1024 main_cst_2
  let main_v11 : IVec S2x16384x1024 1 := cmpf .olt main_v9 main_v10
  let main_c_3 : IVec S_ 1 := constantI S_ 1 1#1
  let main_v12 : IVec S_ 1 := (fun x v => Host.reduce IntOp.andi x v reducesTo_S2x16384x1024_S_d0_1_2 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S2x16384x1024 : Shape := ⟨3, ![2, 16384, 1024]⟩
abbrev S1024 : Shape := ⟨1, ![1024]⟩
abbrev S2x4x256x256 : Shape := ⟨4, ![2, 4, 256, 256]⟩
abbrev S1x2048x256 : Shape := ⟨3, ![1, 2048, 256]⟩
abbrev S256 : Shape := ⟨1, ![256]⟩
abbrev S1x1x256x256 : Shape := ⟨4, ![1, 1, 256, 256]⟩
abbrev S256x256 : Shape := ⟨2, ![256, 256]⟩
abbrev S2048x256 : Shape := ⟨2, ![2048, 256]⟩
abbrev S1x256 : Shape := ⟨2, ![1, 256]⟩
abbrev S256x1 : Shape := ⟨2, ![256, 1]⟩

abbrev nBuf : Space → Nat
  | .hbm => 20
  | .vmem => 46
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S2x4x256x256, .f32⟩
  | .hbm, ⟨18, _⟩ => ⟨S2x4x256x256, .f32⟩
  | .hbm, ⟨19, _⟩ => ⟨S2x16384x1024, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S256, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256, .f32⟩
  | .local _ .vmem, ⟨17, _⟩ => ⟨S256, .f32⟩
  | .local _ .vmem, ⟨18, _⟩ => ⟨S256, .f32⟩
  | .local _ .vmem, ⟨19, _⟩ => ⟨S256, .f32⟩
  | .local _ .vmem, ⟨20, _⟩ => ⟨S1x1x256x256, .f32⟩
  | .local _ .vmem, ⟨21, _⟩ => ⟨S1x1x256x256, .f32⟩
  | .local _ .vmem, ⟨22, _⟩ => ⟨S1x1x256x256, .f32⟩
  | .local _ .vmem, ⟨23, _⟩ => ⟨S1x1x256x256, .f32⟩
  | .local _ .vmem, ⟨24, _⟩ => ⟨S256x256, .f32⟩
  | .local _ .vmem, ⟨25, _⟩ => ⟨S256x256, .f32⟩
  | .local _ .vmem, ⟨26, _⟩ => ⟨S1x2048x256, .f32⟩
  | .local _ .vmem, ⟨27, _⟩ => ⟨S1x2048x256, .f32⟩
  | .local _ .vmem, ⟨28, _⟩ => ⟨S256, .f32⟩
  | .local _ .vmem, ⟨29, _⟩ => ⟨S256, .f32⟩
  | .local _ .vmem, ⟨30, _⟩ => ⟨S256, .f32⟩
  | .local _ .vmem, ⟨31, _⟩ => ⟨S256, .f32⟩
  | .local _ .vmem, ⟨32, _⟩ => ⟨S256, .f32⟩
  | .local _ .vmem, ⟨33, _⟩ => ⟨S256, .f32⟩
  | .local _ .vmem, ⟨34, _⟩ => ⟨S256, .f32⟩
  | .local _ .vmem, ⟨35, _⟩ => ⟨S256, .f32⟩
  | .local _ .vmem, ⟨36, _⟩ => ⟨S256, .f32⟩
  | .local _ .vmem, ⟨37, _⟩ => ⟨S256, .f32⟩
  | .local _ .vmem, ⟨38, _⟩ => ⟨S256, .f32⟩
  | .local _ .vmem, ⟨39, _⟩ => ⟨S256, .f32⟩
  | .local _ .vmem, ⟨40, _⟩ => ⟨S1x1x256x256, .f32⟩
  | .local _ .vmem, ⟨41, _⟩ => ⟨S1x1x256x256, .f32⟩
  | .local _ .vmem, ⟨42, _⟩ => ⟨S1x1x256x256, .f32⟩
  | .local _ .vmem, ⟨43, _⟩ => ⟨S1x1x256x256, .f32⟩
  | .local _ .vmem, ⟨44, _⟩ => ⟨S1x2048x256, .f32⟩
  | .local _ .vmem, ⟨45, _⟩ => ⟨S1x2048x256, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0_0 : Ref sig .tc := ⟨.hbm, 17, rfl⟩
abbrev main_v0_1 : Ref sig .tc := ⟨.hbm, 18, rfl⟩
abbrev main_v1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg3_1 : Ref sig .tc := ⟨.vmem, 33, rfl⟩
abbrev cc1_stg4_0 : Ref sig .tc := ⟨.vmem, 34, rfl⟩
abbrev cc1_stg4_1 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc1_stg9_0 : Ref sig .tc := ⟨.vmem, 44, rfl⟩
abbrev cc1_stg9_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc1_sem0_0 : DmaSem sig := 24
abbrev cc1_sem0_1 : DmaSem sig := 25
abbrev cc1_sem1_0 : DmaSem sig := 26
abbrev cc1_sem1_1 : DmaSem sig := 27
abbrev cc1_sem2_0 : DmaSem sig := 28
abbrev cc1_sem2_1 : DmaSem sig := 29
abbrev cc1_sem3_0 : DmaSem sig := 30
abbrev cc1_sem3_1 : DmaSem sig := 31
abbrev cc1_sem4_0 : DmaSem sig := 32
abbrev cc1_sem4_1 : DmaSem sig := 33
abbrev cc1_sem5_0 : DmaSem sig := 34
abbrev cc1_sem5_1 : DmaSem sig := 35
abbrev cc1_sem6_0 : DmaSem sig := 36
abbrev cc1_sem6_1 : DmaSem sig := 37
abbrev cc1_sem7_0 : DmaSem sig := 38
abbrev cc1_sem7_1 : DmaSem sig := 39
abbrev cc1_sem8_0 : DmaSem sig := 40
abbrev cc1_sem8_1 : DmaSem sig := 41
abbrev cc1_sem9_0 : DmaSem sig := 42
abbrev cc1_sem9_1 : DmaSem sig := 43

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v55 : BitVec 1 := Scalar.cmpi .eq arg2 c7_i32
  let v56 : BitVec 32 := Scalar.extui v55
  let c0_i32_23 : BitVec 32 := 0#32
  let v57 : BitVec 1 := Scalar.cmpi .ne v56 c0_i32_23
  v57

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_7 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_8 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_9 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S1x1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev grid1 : Pipeline.Grid := ⟨3, ![2, 4, 8], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_2 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_3 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_5 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_6 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_8 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, false]

abbrev stage1_2 : Fin 2 → Memref sig .tc .vmem S256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, false]

abbrev stage1_6 : Fin 2 → Memref sig .tc .vmem S256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, false]

abbrev stage1_7 : Fin 2 → Memref sig .tc .vmem S1x1x256x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, false]

abbrev stage1_8 : Fin 2 → Memref sig .tc .vmem S1x1x256x256 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S1x2048x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  bitsLt_bf16_f32 : FTy.bits .bf16 < FTy.bits .f32
  reduces_S256x256_S256 : S256x256.Reduces [1] S256
  shapeCasts_S256_S256x1 : S256.ShapeCasts S256x1
  broadcasts_S256x1_S256x256 : S256x1.Broadcasts S256x256
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S256x256 : S1x1x256x256.ShapeCasts S256x256
  shapeCasts_S256x256_S1x1x256x256 : S256x256.ShapeCasts S1x1x256x256
  shapeCasts_S2048x256_S1x2048x256 : S2048x256.ShapeCasts S1x2048x256
  dot_S2048x256_S2048x256_S256x256_0_0_1_1_n_n_wf : DotDims.WF S2048x256 S2048x256 S256x256 [0] [0] [1] [1] [] []
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S2x16384x1024.size a
  hwx0_0 : ∀ i : grid0.Coords, EltTy.bits .f32 = 32 ∨ (Rect.block (s := S2x16384x1024) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S2x16384x1024.size a
  hwx0_1 : ∀ i : grid0.Coords, EltTy.bits .f32 = 32 ∨ (Rect.block (s := S2x16384x1024) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S1024.size a
  hwx0_2 : ∀ i : grid0.Coords, EltTy.bits .f32 = 32 ∨ (Rect.block (s := S1024) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S1024.size a
  hwx0_3 : ∀ i : grid0.Coords, EltTy.bits .f32 = 32 ∨ (Rect.block (s := S1024) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S1024.size a
  hwx0_4 : ∀ i : grid0.Coords, EltTy.bits .f32 = 32 ∨ (Rect.block (s := S1024) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S1024.size a
  hwx0_5 : ∀ i : grid0.Coords, EltTy.bits .f32 = 32 ∨ (Rect.block (s := S1024) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S1024.size a
  hwx0_6 : ∀ i : grid0.Coords, EltTy.bits .f32 = 32 ∨ (Rect.block (s := S1024) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S1024.size a
  hwx0_7 : ∀ i : grid0.Coords, EltTy.bits .f32 = 32 ∨ (Rect.block (s := S1024) S256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S1024.size a
  hwx0_8 : ∀ i : grid0.Coords, EltTy.bits .f32 = 32 ∨ (Rect.block (s := S1024) S256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S1024.size a
  hwx0_9 : ∀ i : grid0.Coords, EltTy.bits .f32 = 32 ∨ (Rect.block (s := S1024) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x256x256.size a ≤ S2x4x256x256.size a
  hwx0_10 : ∀ i : grid0.Coords, EltTy.bits .f32 = 32 ∨ (Rect.block (s := S2x4x256x256) S1x1x256x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x256x256.size a ≤ S2x4x256x256.size a
  hwx0_11 : ∀ i : grid0.Coords, EltTy.bits .f32 = 32 ∨ (Rect.block (s := S2x4x256x256) S1x1x256x256.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2048x256.size a ≤ S2x16384x1024.size a
  hwx1_0 : ∀ i : grid1.Coords, EltTy.bits .f32 = 32 ∨ (Rect.block (s := S2x16384x1024) S1x2048x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S1024.size a
  hwx1_1 : ∀ i : grid1.Coords, EltTy.bits .f32 = 32 ∨ (Rect.block (s := S1024) S256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S1024.size a
  hwx1_2 : ∀ i : grid1.Coords, EltTy.bits .f32 = 32 ∨ (Rect.block (s := S1024) S256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S1024.size a
  hwx1_3 : ∀ i : grid1.Coords, EltTy.bits .f32 = 32 ∨ (Rect.block (s := S1024) S256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S1024.size a
  hwx1_4 : ∀ i : grid1.Coords, EltTy.bits .f32 = 32 ∨ (Rect.block (s := S1024) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S1024.size a
  hwx1_5 : ∀ i : grid1.Coords, EltTy.bits .f32 = 32 ∨ (Rect.block (s := S1024) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S1024.size a
  hwx1_6 : ∀ i : grid1.Coords, EltTy.bits .f32 = 32 ∨ (Rect.block (s := S1024) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1x256x256.size a ≤ S2x4x256x256.size a
  hwx1_7 : ∀ i : grid1.Coords, EltTy.bits .f32 = 32 ∨ (Rect.block (s := S2x4x256x256) S1x1x256x256.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x1x256x256.size a ≤ S2x4x256x256.size a
  hwx1_8 : ∀ i : grid1.Coords, EltTy.bits .f32 = 32 ∨ (Rect.block (s := S2x4x256x256) S1x1x256x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x2048x256.size a ≤ S2x16384x1024.size a
  hwx1_9 : ∀ i : grid1.Coords, EltTy.bits .f32 = 32 ∨ (Rect.block (s := S2x16384x1024) S1x2048x256.size (cc1_transform_9 i) (hinb1_9 i)).WholeWords (EltTy.packing .f32)

variable [Facts₀]

def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf
def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg10) S256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg11) S256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg12) S256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_0) S1x1x256x256.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_1) S1x1x256x256.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev idle0 : Fin 12 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun i => !(k0_cond2 i == 1#1) | 11 => fun i => !(k0_cond2 i == 1#1) | ⟨_ + 12, h⟩ => absurd h (Nat.not_lt.2 (Nat.le_add_left _ _))

abbrev win1_0 : Pipeline.Window sig grid1 :=
  Pipeline.Window.ofSpec (Memref.whole main_arg2) S1x2048x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg15) S256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S256.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v0_0) S1x1x256x256.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v0_1) S1x1x256x256.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v1) S1x2048x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S2x16384x1024 : Shape := ⟨3, ![2, 16384, 1024]⟩
abbrev S1024 : Shape := ⟨1, ![1024]⟩
abbrev S1x1x1024 : Shape := ⟨3, ![1, 1, 1024]⟩
abbrev S2x16384x4x256 : Shape := ⟨4, ![2, 16384, 4, 256]⟩
abbrev S2x4x256x16384 : Shape := ⟨4, ![2, 4, 256, 16384]⟩
abbrev S2x4x256x256 : Shape := ⟨4, ![2, 4, 256, 256]⟩
abbrev S_ : Shape := ⟨0, ![]⟩
abbrev S2x4x256 : Shape := ⟨3, ![2, 4, 256]⟩
abbrev S2x4x256x1 : Shape := ⟨4, ![2, 4, 256, 1]⟩

abbrev nBuf : Space → Nat
  | .hbm => 117
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x16384x1024, .f32⟩
  | .hbm, ⟨2, _⟩ => ⟨S2x16384x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1x1x1024, .f32⟩
  | .hbm, ⟨18, _⟩ => ⟨S2x16384x1024, .f32⟩
  | .hbm, ⟨19, _⟩ => ⟨S2x16384x1024, .f32⟩
  | .hbm, ⟨20, _⟩ => ⟨S1x1x1024, .f32⟩
  | .hbm, ⟨21, _⟩ => ⟨S2x16384x1024, .f32⟩
  | .hbm, ⟨22, _⟩ => ⟨S2x16384x1024, .f32⟩
  | .hbm, ⟨23, _⟩ => ⟨S1x1x1024, .f32⟩
  | .hbm, ⟨24, _⟩ => ⟨S2x16384x1024, .f32⟩
  | .hbm, ⟨25, _⟩ => ⟨S2x16384x1024, .f32⟩
  | .hbm, ⟨26, _⟩ => ⟨S1x1x1024, .f32⟩
  | .hbm, ⟨27, _⟩ => ⟨S2x16384x1024, .f32⟩
  | .hbm, ⟨28, _⟩ => ⟨S2x16384x1024, .f32⟩
  | .hbm, ⟨29, _⟩ => ⟨S1x1x1024, .f32⟩
  | .hbm, ⟨30, _⟩ => ⟨S2x16384x1024, .f32⟩
  | .hbm, ⟨31, _⟩ => ⟨S2x16384x1024, .f32⟩
  | .hbm, ⟨32, _⟩ => ⟨S1x1x1024, .f32⟩
  | .hbm, ⟨33, _⟩ => ⟨S2x16384x1024, .f32⟩
  | .hbm, ⟨34, _⟩ => ⟨S2x16384x1024, .f32⟩
  | .hbm, ⟨35, _⟩ => ⟨S2x16384x4x256, .f32⟩
  | .hbm, ⟨36, _⟩ => ⟨S2x4x256x16384, .f32⟩
  | .hbm, ⟨37, _⟩ => ⟨S2x16384x4x256, .f32⟩
  | .hbm, ⟨38, _⟩ => ⟨S2x4x256x16384, .f32⟩
  | .hbm, ⟨39, _⟩ => ⟨S2x16384x4x256, .f32⟩
  | .hbm, ⟨40, _⟩ => ⟨S2x4x256x16384, .f32⟩
  | .hbm, ⟨41, _⟩ => ⟨S2x4x256x256, .f32⟩
  | .hbm, ⟨42, _⟩ => ⟨S_, .f32⟩
  | .hbm, ⟨43, _⟩ => ⟨S2x4x256x256, .f32⟩
  | .hbm, ⟨44, _⟩ => ⟨S2x4x256x256, .f32⟩
  | .hbm, ⟨45, _⟩ => ⟨S_, .f32⟩
  | .hbm, ⟨46, _⟩ => ⟨S2x4x256, .f32⟩
  | .hbm, ⟨47, _⟩ => ⟨S_, .f32⟩
  | .hbm, ⟨48, _⟩ => ⟨S2x4x256, .f32⟩
  | .hbm, ⟨49, _⟩ => ⟨S2x4x256, .f32⟩
  | .hbm, ⟨50, _⟩ => ⟨S2x4x256x1, .f32⟩
  | .hbm, ⟨51, _⟩ => ⟨S2x4x256x256, .f32⟩
  | .hbm, ⟨52, _⟩ => ⟨S2x4x256x256, .f32⟩
  | .hbm, ⟨53, _⟩ => ⟨S2x4x256x256, .f32⟩
  | .hbm, ⟨54, _⟩ => ⟨S_, .f32⟩
  | .hbm, ⟨55, _⟩ => ⟨S2x4x256, .f32⟩
  | .hbm, ⟨56, _⟩ => ⟨S2x4x256x1, .f32⟩
  | .hbm, ⟨57, _⟩ => ⟨S2x4x256x256, .f32⟩
  | .hbm, ⟨58, _⟩ => ⟨S2x4x256x256, .f32⟩
  | .hbm, ⟨59, _⟩ => ⟨S2x4x256x16384, .f32⟩
  | .hbm, ⟨60, _⟩ => ⟨S2x16384x4x256, .f32⟩
  | .hbm, ⟨61, _⟩ => ⟨S2x16384x1024, .f32⟩
  | .hbm, ⟨62, _⟩ => ⟨S1x1x1024, .f32⟩
  | .hbm, ⟨63, _⟩ => ⟨S2x16384x1024, .f32⟩
  | .hbm, ⟨64, _⟩ => ⟨S2x16384x1024, .f32⟩
  | .hbm, ⟨65, _⟩ => ⟨S1x1x1024, .f32⟩
  | .hbm, ⟨66, _⟩ => ⟨S2x16384x1024, .f32⟩
  | .hbm, ⟨67, _⟩ => ⟨S2x16384x1024, .f32⟩
  | .hbm, ⟨68, _⟩ => ⟨S1x1x1024, .f32⟩
  | .hbm, ⟨69, _⟩ => ⟨S2x16384x1024, .f32⟩
  | .hbm, ⟨70, _⟩ => ⟨S2x16384x1024, .f32⟩
  | .hbm, ⟨71, _⟩ => ⟨S1x1x1024, .f32⟩
  | .hbm, ⟨72, _⟩ => ⟨S2x16384x1024, .f32⟩
  | .hbm, ⟨73, _⟩ => ⟨S2x16384x1024, .f32⟩
  | .hbm, ⟨74, _⟩ => ⟨S1x1x1024, .f32⟩
  | .hbm, ⟨75, _⟩ => ⟨S2x16384x1024, .f32⟩
  | .hbm, ⟨76, _⟩ => ⟨S2x16384x1024, .f32⟩
  | .hbm, ⟨77, _⟩ => ⟨S1x1x1024, .f32⟩
  | .hbm, ⟨78, _⟩ => ⟨S2x16384x1024, .f32⟩
  | .hbm, ⟨79, _⟩ => ⟨S2x16384x1024, .f32⟩
  | .hbm, ⟨80, _⟩ => ⟨S2x16384x4x256, .f32⟩
  | .hbm, ⟨81, _⟩ => ⟨S2x4x256x16384, .f32⟩
  | .hbm, ⟨82, _⟩ => ⟨S2x16384x4x256, .f32⟩
  | .hbm, ⟨83, _⟩ => ⟨S2x4x256x16384, .f32⟩
  | .hbm, ⟨84, _⟩ => ⟨S2x16384x4x256, .f32⟩
  | .hbm, ⟨85, _⟩ => ⟨S2x4x256x16384, .f32⟩
  | .hbm, ⟨86, _⟩ => ⟨S2x4x256x256, .f32⟩
  | .hbm, ⟨87, _⟩ => ⟨S_, .f32⟩
  | .hbm, ⟨88, _⟩ => ⟨S2x4x256x256, .f32⟩
  | .hbm, ⟨89, _⟩ => ⟨S2x4x256x256, .f32⟩
  | .hbm, ⟨90, _⟩ => ⟨S_, .f32⟩
  | .hbm, ⟨91, _⟩ => ⟨S2x4x256, .f32⟩
  | .hbm, ⟨92, _⟩ => ⟨S_, .f32⟩
  | .hbm, ⟨93, _⟩ => ⟨S2x4x256, .f32⟩
  | .hbm, ⟨94, _⟩ => ⟨S2x4x256, .f32⟩
  | .hbm, ⟨95, _⟩ => ⟨S2x4x256x1, .f32⟩
  | .hbm, ⟨96, _⟩ => ⟨S2x4x256x256, .f32⟩
  | .hbm, ⟨97, _⟩ => ⟨S2x4x256x256, .f32⟩
  | .hbm, ⟨98, _⟩ => ⟨S2x4x256x256, .f32⟩
  | .hbm, ⟨99, _⟩ => ⟨S_, .f32⟩
  | .hbm, ⟨100, _⟩ => ⟨S2x4x256, .f32⟩
  | .hbm, ⟨101, _⟩ => ⟨S2x4x256x1, .f32⟩
  | .hbm, ⟨102, _⟩ => ⟨S2x4x256x256, .f32⟩
  | .hbm, ⟨103, _⟩ => ⟨S2x4x256x256, .f32⟩
  | .hbm, ⟨104, _⟩ => ⟨S2x4x256x16384, .f32⟩
  | .hbm, ⟨105, _⟩ => ⟨S2x16384x4x256, .f32⟩
  | .hbm, ⟨106, _⟩ => ⟨S2x16384x1024, .f32⟩
  | .hbm, ⟨107, _⟩ => ⟨S2x16384x1024, .f32⟩
  | .hbm, ⟨108, _⟩ => ⟨S_, .f32⟩
  | .hbm, ⟨109, _⟩ => ⟨S2x16384x1024, .f32⟩
  | .hbm, ⟨110, _⟩ => ⟨S2x16384x1024, .f32⟩
  | .hbm, ⟨111, _⟩ => ⟨S1x1x1024, .f32⟩
  | .hbm, ⟨112, _⟩ => ⟨S2x16384x1024, .f32⟩
  | .hbm, ⟨113, _⟩ => ⟨S2x16384x1024, .f32⟩
  | .hbm, ⟨114, _⟩ => ⟨S1x1x1024, .f32⟩
  | .hbm, ⟨115, _⟩ => ⟨S2x16384x1024, .f32⟩
  | .hbm, ⟨116, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst : Ref sig .tc := ⟨.hbm, 42, rfl⟩
abbrev main_v25 : Ref sig .tc := ⟨.hbm, 43, rfl⟩
abbrev main_v26 : Ref sig .tc := ⟨.hbm, 44, rfl⟩
abbrev main_cst_0 : Ref sig .tc := ⟨.hbm, 45, rfl⟩
abbrev main_v27 : Ref sig .tc := ⟨.hbm, 46, rfl⟩
abbrev main_cst_1 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_3 : Ref sig .tc := ⟨.hbm, 87, rfl⟩
abbrev main_v66 : Ref sig .tc := ⟨.hbm, 88, rfl⟩
abbrev main_v67 : Ref sig .tc := ⟨.hbm, 89, rfl⟩
abbrev main_cst_4 : Ref sig .tc := ⟨.hbm, 90, rfl⟩
abbrev main_v68 : Ref sig .tc := ⟨.hbm, 91, rfl⟩
abbrev main_cst_5 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_cst_6 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_7 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2x16384x1024_0_1_2 : S1x1x1024.BroadcastsInDim S2x16384x1024 (![0, 1, 2] : Fin 3 → Fin S2x16384x1024.rank)
  shapeCasts_S2x16384x1024_S2x16384x4x256 : S2x16384x1024.ShapeCasts S2x16384x4x256
  transposes_S2x16384x4x256_S2x4x256x16384_0_2_3_1 : S2x16384x4x256.Transposes [0, 2, 3, 1] S2x4x256x16384
  bcast_S_S2x4x256x256 : S_.BroadcastsInDim S2x4x256x256 (![] : Fin 0 → Fin S2x4x256x256.rank)
  reducesTo_S2x4x256x256_S2x4x256_d3 : S2x4x256x256.ReducesTo [3] S2x4x256
  h_S_ : 0 < S_.numel
  bcast_S_S2x4x256 : S_.BroadcastsInDim S2x4x256 (![] : Fin 0 → Fin S2x4x256.rank)
  bcast_S2x4x256_S2x4x256x1_0_1_2 : S2x4x256.BroadcastsInDim S2x4x256x1 (![0, 1, 2] : Fin 3 → Fin S2x4x256x1.rank)
  bcast_S2x4x256x1_S2x4x256x256_0_1_2_3 : S2x4x256x1.BroadcastsInDim S2x4x256x256 (![0, 1, 2, 3] : Fin 4 → Fin S2x4x256x256.rank)
  transposes_S2x4x256x16384_S2x16384x4x256_0_3_1_2 : S2x4x256x16384.Transposes [0, 3, 1, 2] S2x16384x4x256
  shapeCasts_S2x16384x4x256_S2x16384x1024 : S2x16384x4x256.ShapeCasts S2x16384x1024
  bcast_S_S2x16384x1024 : S_.BroadcastsInDim S2x16384x1024 (![] : Fin 0 → Fin S2x16384x1024.rank)
  dot_S2x4x256x16384_S2x4x256x16384_S2x4x256x256_3_3_2_2_01_01_wf : DotDims.WF S2x4x256x16384 S2x4x256x16384 S2x4x256x256 [3] [3] [2] [2] [0, 1] [0, 1]
  dot_S2x4x256x256_S2x4x256x16384_S2x4x256x16384_3_2_2_3_01_01_wf : DotDims.WF S2x4x256x256 S2x4x256x16384 S2x4x256x16384 [3] [2] [2] [3] [0, 1] [0, 1]

variable [Facts₀]

def dot_S2x4x256x16384_S2x4x256x16384_S2x4x256x256_3_3_2_2_01_01 : DotDims S2x4x256x16384 S2x4x256x16384 S2x4x256x256 where
  lhsContracting := [3]
  rhsContracting := [3]
  lhsNonContracting := [2]
  rhsNonContracting := [2]
  lhsBatch := [0, 1]
  rhsBatch := [0, 1]
  wf := dot_S2x4x256x16384_S2x4x256x16384_S2x4x256x256_3_3_2_2_01_01_wf
def dot_S2x4x256x256_S2x4x256x16384_S2x4x256x16384_3_2_2_3_01_01 : DotDims S2x4x256x256 S2x4x256x16384 S2x4x256x16384 where
  lhsContracting := [3]
  rhsContracting := [2]
  lhsNonContracting := [2]
  rhsNonContracting := [3]
  lhsBatch := [0, 1]
  rhsBatch := [0, 1]
  wf := dot_S2x4x256x256_S2x4x256x16384_S2x4x256x16384_3_2_2_3_01_01_wf

class Facts : Prop extends Facts₀ where

variable [Facts]
-- ==== Proof.K.R0Runs.lean ====
import proofs.«120010_j12481174962634_1_alg».proof.Proof.Gen.Kernel.Launch
import proofs.«120010_j12481174962634_1_alg».proof.Proof.Gen.Kernel.Skeleton
import proofs.«120010_j12481174962634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

abbrev scM0_0 : Memref sig .tc .vmem S256x256 .f32 := Memref.whole cc0_scratch0
abbrev scM0_1 : Memref sig .tc .vmem S256x256 .f32 := Memref.whole cc0_scratch1

/-- The scoped buffers beside the two accumulators, unopened. -/
abbrev restS0 (c : Dev nD) : sProp 𝕄 := Pipeline.scopedRestBut spec0 c [cc0_scratch0, cc0_scratch1]

/-- The launch's invariant with the two accumulators split out, each owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restS0 c) ∗ (∃ r, prngReg c r)) := by
  unfold Pipeline.ΦA restS0
  rw [Pipeline.scopedRest_split_of_list spec0 c [cc0_scratch0, cc0_scratch1] (by decide) (by decide)]
  simp only [scM0_0, scM0_1, owns_whole, BI.bigSepL_cons_cons, BI.bigSepL_singleton]; try rfl

section
variable (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256 .f32) (harg12 : arg12.IsWhole) (arg13 : Memref sig .tc .vmem S1x1x256x256 .f32) (harg13 : arg13.IsWhole) (arg14 : Memref sig .tc .vmem S1x1x256x256 .f32) (harg14 : arg14.IsWhole) (arg15 : Memref sig .tc .vmem S256x256 .f32) (harg15 : arg15.IsWhole) (arg16 : Memref sig .tc .vmem S256x256 .f32) (harg16 : arg16.IsWhole)
  (x0 x1 : Vec F S1x2048x256 .f32) (x2 x3 x4 x5 x6 x7 x8 x9 : Vec F S256 .f32) (xs0 xs1 : Vec F S256x256 .f32)

set_option maxHeartbeats 4000000 in
/-- The body run whole in each control case: the inputs come back as found, each stored buffer holds its pieces. -/
noncomputable def kernelRun0_A (hc0 : cond0_0 i) (hc1 : ¬cond0_1 i) :
    Σ' (LS0 : List (View.Piece (Elt F) S256x256 .f32)), { LS1 : List (View.Piece (Elt F) S256x256 .f32) //
      ∀ (xi10 xi11 : Vec F S1x1x256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi10 xi11 E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | exact hc0 | exact hc1)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [HS0]; swap
    · iexists _; iexact HS1
    · iexists _; iexact HS0
    all_goals (iexists _; isplitr; swap; iassumption; ipureintro; exact Memref.IsWhole.read_unread _ _)

set_option maxHeartbeats 4000000 in
noncomputable def kernelRun0_B (hc0 : ¬cond0_0 i) (hc1 : ¬cond0_1 i) :
    Σ' (LS0 : List (View.Piece (Elt F) S256x256 .f32)), { LS1 : List (View.Piece (Elt F) S256x256 .f32) //
      ∀ (xi10 xi11 : Vec F S1x1x256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi10 xi11 E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hfs0; obtain rfl := harg16.eq_unread hfs1
    sl_exec (disch := first | exact hc0 | exact hc1)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [HS0]; swap
    · iexists _; iexact HS1
    · iexists _; iexact HS0
    all_goals (iexists _; isplitr; swap; iassumption; ipureintro; exact Memref.IsWhole.read_unread _ _)

set_option maxHeartbeats 4000000 in
noncomputable def kernelRun0_C (hc0 : ¬cond0_0 i) (hc1 : cond0_1 i) :
    Σ' (L10 : List (View.Piece (Elt F) S1x1x256x256 .f32)) (L11 : List (View.Piece (Elt F) S1x1x256x256 .f32)) (LS0 : List (View.Piece (Elt F) S256x256 .f32)), { LS1 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg15.eq_unread hfs0; obtain rfl := harg16.eq_unread hfs1
    sl_exec (disch := first | exact hc0 | exact hc1)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [HS0]; swap
    · iexists _; iexact HS1
    · iexists _; iexact HS0
    · iexists _; iexact H11
    · iexists _; iexact H10
    all_goals (iexists _; isplitr; swap; iassumption; ipureintro; exact Memref.IsWhole.read_unread _ _)

end

end Cert.Kernel.Fr

end
-- ==== Proof.K.R0Body.lean ====
import proofs.«120010_j12481174962634_1_alg».proof.Proof.K.R0Runs
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := by decide
theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

variable (V : (c : Dev nD) → (b : Ref sig .tc) → Buf (Elt F) ((c : Thread nD τ).loc b))

/-- One point's step of the two accumulators: each gains the product of the tile's two mapped blocks. -/
def accStep (c : Dev nD) (t : Fin cfg0.N) (p : Vec F S256x256 .f32 × Vec F S256x256 .f32) : Vec F S256x256 .f32 × Vec F S256x256 .f32 :=
  (k0_pay1 (k0_pay9 (iblk0 V c 0 t) (iblk0 V c 2 t) (iblk0 V c 3 t)) (k0_pay10 (iblk0 V c 1 t) (iblk0 V c 4 t) (iblk0 V c 5 t)) p.1,
    k0_pay2 (k0_pay11 (iblk0 V c 0 t) (iblk0 V c 6 t) (iblk0 V c 7 t)) (k0_pay12 (iblk0 V c 1 t) (iblk0 V c 8 t)) (k0_pay13 (iblk0 V c 9 t)) p.2)

/-- The accumulators after point n: from zero at a first tile, else from what the point before left. -/
def accAt0 (c : Dev nD) : (n : ℕ) → n < cfg0.N → Vec F S256x256 .f32 × Vec F S256x256 .f32
  | 0, hn => accStep V c ⟨0, hn⟩ (k0_pay5, k0_pay6)
  | n + 1, hn => accStep V c ⟨n + 1, hn⟩ (if (n + 1) % 8 = 0 then (k0_pay5, k0_pay6) else accAt0 c n (Nat.lt_of_succ_lt hn))

theorem accAt0_first (c : Dev nD) (t : Fin cfg0.N) (h0 : t.val % 8 = 0) : accAt0 V c t.val t.isLt = accStep V c t (k0_pay5, k0_pay6) := by
  obtain ⟨n, hn⟩ := t
  cases n with
  | zero => rfl
  | succ n => exact congrArg (accStep V c ⟨n + 1, hn⟩) (if_pos h0)
theorem accAt0_next (c : Dev nD) (t : Fin cfg0.N) (h0 : ¬t.val % 8 = 0) : accAt0 V c t.val t.isLt = accStep V c t (accAt0 V c (t.val - 1) (Nat.lt_of_le_of_lt (Nat.sub_le _ _) t.isLt)) := by
  obtain ⟨n, hn⟩ := t
  cases n with
  | zero => exact absurd (Nat.zero_mod _) h0
  | succ n => exact congrArg (accStep V c ⟨n + 1, hn⟩) (if_neg h0)

/-- The invariant before position n: the launch's at 0; afterwards the accumulators at what the point before left. -/
def PhiS (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2) ∗ restS0 c) ∗ (∃ r, prngReg c r))

theorem PhiS_pos (c : Dev nD) (n : ℕ) (h : n ≤ cfg0.N) (hz : n ≠ 0) :
    PhiS V c n h = iprop(iprop(iprop(owns (c : Thread nD τ) scM0_0 fullShare (accAt0 V c (n - 1) (by omega)).1 ∗ owns (c : Thread nD τ) scM0_1 fullShare (accAt0 V c (n - 1) (by omega)).2) ∗ restS0 c) ∗ (∃ r, prngReg c r)) := by
  cases n with
  | zero => exact absurd rfl hz
  | succ n => rfl

/-- At every position the invariant gives the accumulators at some contents. -/
theorem PhiS_forget (c : Dev nD) (n : ℕ) (h : n ≤ cfg0.N) :
    PhiS V c n h ⊢ iprop(iprop(iprop((∃ d, owns (c : Thread nD τ) scM0_0 fullShare d) ∗ (∃ d, owns (c : Thread nD τ) scM0_1 fullShare d)) ∗ restS0 c) ∗ (∃ r, prngReg c r)) := by
  cases n with
  | zero => rw [show PhiS V c 0 h = Pipeline.ΦA spec0 c from rfl, PhiA0_eq]
  | succ n =>
    rw [PhiS_pos V c _ h (Nat.succ_ne_zero n)]
    iintro ⟨⟨⟨HS0, HS1⟩, HR⟩, Hg⟩
    iframe
    isplitl [HS0]; · iexists _; iexact HS0
    iexists _; iexact HS1

/-- Every input keeps its block; a last tile's two outputs are the row softmaxes of the scaled accumulators. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => k0_pay3 (accAt0 V c t.val t.isLt).1
    | ⟨11, _⟩ => k0_pay4 (accAt0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := rfl

/-- The body is handed each input as it hands it back. -/
theorem before0 (c : Dev nD) : ∀ w : Fin cfg0.W, (cfg0.win w).isOut = false → ∀ t d, (dat0 V c).before w t d = (dat0 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ =>
    (dat0 V c).before_in_eq_fetched _ rfl (fun _ => rfl) (fun _ _ _ => rfl) (fun _ => rfl)
  | ⟨10, _⟩, h | ⟨11, _⟩, h => Bool.noConfusion h

theorem idle10 : ∀ t : Fin cfg0.N, ¬t.val % 8 = 7 → idle0 10 (grid0.coords t) = true ∧ (win0 10).flush t = false
    ∧ idle0 11 (grid0.coords t) = true ∧ (win0 11).flush t = false := by decide +kernel
theorem live10 : ∀ t : Fin cfg0.N, t.val % 8 = 7 → idle0 10 (grid0.coords t) = false ∧ idle0 11 (grid0.coords t) = false := by decide +kernel

set_option maxHeartbeats 16000000 in
/-- At each point the tile index selects the case; a store's pieces tile its buffer, so it reads back as the body's arithmetic on the blocks. -/
theorem body_obligation0 (c : Dev nD) : BodyObligation (dat0 (F := F) V c) (defs₀ (F := F)) Variants.none () Set.univ := fun t => by
  simp +decide only [bigSep_W0, before0 V c]
  rw [show (dat0 V c).Φ t.succ = iprop(iprop(iprop(owns (c : Thread nD τ) scM0_0 fullShare (accAt0 V c t.val t.isLt).1 ∗ owns (c : Thread nD τ) scM0_1 fullShare (accAt0 V c t.val t.isLt).2) ∗ restS0 c) ∗ (∃ r, prngReg c r)) from rfl,
    show (dat0 V c).Φ t.castSucc = PhiS V c t.val (Nat.le_of_lt t.isLt) from rfl]
  dsimp only [dat0, Dat.owesAt, Dat.bound]
  sl_whnfR [defs₀, Defs.onTc]
  by_cases h0 : t.val % 8 = 0
  · have h1 : ¬t.val % 8 = 7 := by omega
    simp only [idle10 t h1]
    rw [accAt0_first V c t h0]
    unfold accStep; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HΦ' := (PhiS_forget V c _ _) $$ HΦ
    icases HΦ' with ⟨⟨⟨HS0, HS1⟩, HR⟩, Hg⟩
    iapply ((kernelRun0_A c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) ((hcond0_0 t).mpr h0) (fun h => h1 ((hcond0_1 t).mp h))).2.2 _ _ _ _)
    iframe
    iintro ⟨H0, H1, H2, H3, H4, H5, H6, H7, H8, H9, H10, H11, ⟨%es0, HS0⟩, ⟨%es1, HS1⟩⟩
    iframe
    isplitl [HS0 HS1]
    · isplitl [HS0]
      · unfold owns; iexists _; isplitr
        swap; · iexact HS0
        ipureintro
        rw [View.read_writes_eq_canon _ _ _ (View.cover_of_tiledL _ S256x256.size (by sl_kernel_rfl))]
        unfold kernelRun0_A; dsimp only; sl_unfold_words
        rw [View.canon_cons_unit_zero (S := S256x256) hz2]
        simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
      unfold owns; iexists _; isplitr
      swap; · iexact HS1
      ipureintro
      rw [View.read_writes_eq_canon _ _ _ (View.cover_of_tiledL _ S256x256.size (by sl_kernel_rfl))]
      unfold kernelRun0_A; dsimp only; sl_unfold_words
      rw [View.canon_cons_unit_zero (S := S256x256) hz2]
      simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
    isplitl [H10]; · iexists _; iexact H10
    iexists _; iexact H11
  · rw [PhiS_pos V c _ _ (by omega : t.val ≠ 0), accAt0_next V c t h0]
    unfold accStep; dsimp only
    by_cases h1 : t.val % 8 = 7
    · simp only [live10 t h1]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (accAt0 V c (t.val - 1) (Nat.lt_of_le_of_lt (Nat.sub_le _ _) t.isLt)).1 (accAt0 V c (t.val - 1) (Nat.lt_of_le_of_lt (Nat.sub_le _ _) t.isLt)).2 (fun h => h0 ((hcond0_0 t).mp h)) ((hcond0_1 t).mpr h1)).2.2.2.2 _ _)
      iframe
      isplitl [H10]; · iexists _; iexact H10
      isplitl [H11]; · iexists _; iexact H11
      iintro ⟨H0, H1, H2, H3, H4, H5, H6, H7, H8, H9, ⟨%e10, H10⟩, ⟨%e11, H11⟩, ⟨%es0, HS0⟩, ⟨%es1, HS1⟩⟩
      iframe
      isplitl [HS0 HS1]
      · isplitl [HS0]
        · unfold owns; iexists _; isplitr
          swap; · iexact HS0
          ipureintro
          rw [View.read_writes_eq_canon _ _ _ (View.cover_of_tiledL _ S256x256.size (by sl_kernel_rfl))]
          unfold kernelRun0_C; dsimp only; sl_unfold_words
          rw [View.canon_unit_zero (S := S256x256) hz2]
          simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
        unfold owns; iexists _; isplitr
        swap; · iexact HS1
        ipureintro
        rw [View.read_writes_eq_canon _ _ _ (View.cover_of_tiledL _ S256x256.size (by sl_kernel_rfl))]
        unfold kernelRun0_C; dsimp only; sl_unfold_words
        rw [View.canon_unit_zero (S := S256x256) hz2]
        simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
      isplitl [H10]
      · unfold owns; iexists _; isplitr
        swap; · iexact H10
        ipureintro
        rw [View.read_writes_eq_canon _ _ _ (View.cover_of_tiledL _ S1x1x256x256.size (by sl_kernel_rfl))]
        unfold kernelRun0_C; dsimp only; sl_unfold_words
        rw [View.canon_unit_zero (S := S1x1x256x256) hz4]
        simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
      unfold owns; iexists _; isplitr
      swap; · iexact H11
      ipureintro
      rw [View.read_writes_eq_canon _ _ _ (View.cover_of_tiledL _ S1x1x256x256.size (by sl_kernel_rfl))]
      unfold kernelRun0_C; dsimp only; sl_unfold_words
      rw [View.canon_unit_zero (S := S1x1x256x256) hz4]
      simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
    · simp only [idle10 t h1]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (accAt0 V c (t.val - 1) (Nat.lt_of_le_of_lt (Nat.sub_le _ _) t.isLt)).1 (accAt0 V c (t.val - 1) (Nat.lt_of_le_of_lt (Nat.sub_le _ _) t.isLt)).2 (fun h => h0 ((hcond0_0 t).mp h)) (fun h => h1 ((hcond0_1 t).mp h))).2.2 _ _ _ _)
      iframe
      iintro ⟨H0, H1, H2, H3, H4, H5, H6, H7, H8, H9, H10, H11, ⟨%es0, HS0⟩, ⟨%es1, HS1⟩⟩
      iframe
      isplitl [HS0 HS1]
      · isplitl [HS0]
        · unfold owns; iexists _; isplitr
          swap; · iexact HS0
          ipureintro
          rw [View.read_writes_eq_canon _ _ _ (View.cover_of_tiledL _ S256x256.size (by sl_kernel_rfl))]
          unfold kernelRun0_B; dsimp only; sl_unfold_words
          rw [View.canon_unit_zero (S := S256x256) hz2]
          simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
        unfold owns; iexists _; isplitr
        swap; · iexact HS1
        ipureintro
        rw [View.read_writes_eq_canon _ _ _ (View.cover_of_tiledL _ S256x256.size (by sl_kernel_rfl))]
        unfold kernelRun0_B; dsimp only; sl_unfold_words
        rw [View.canon_unit_zero (S := S256x256) hz2]
        simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
      isplitl [H10]; · iexists _; iexact H10
      iexists _; iexact H11

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]; exact PhiS_forget V c (Fin.last cfg0.N).val (Nat.le_of_lt_succ (Fin.last cfg0.N).isLt)

end Cert.Kernel.Fr

end
-- ==== Proof.K.R1Run.lean ====
import proofs.«120010_j12481174962634_1_alg».proof.Proof.Gen.Kernel.Launch
import proofs.«120010_j12481174962634_1_alg».proof.Proof.Gen.Kernel.Skeleton
import proofs.«120010_j12481174962634_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: the inputs are returned as found, the output holds the stored pieces. -/
noncomputable def kernelRun1 (c : Dev nD) (i : grid1.Coords) (arg3 : Memref sig .tc .vmem S1x2048x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S1x1x256x256 .f32) (harg10 : arg10.IsWhole) (arg11 : Memref sig .tc .vmem S1x1x256x256 .f32) (harg11 : arg11.IsWhole) (arg12 : Memref sig .tc .vmem S1x2048x256 .f32) (harg12 : arg12.IsWhole)
    (x0 : Vec F S1x2048x256 .f32) (x1 x2 x3 x4 x5 x6 : Vec F S256 .f32) (x7 x8 : Vec F S1x1x256x256 .f32) :
    { L9 : List (View.Piece (Elt F) S1x2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9)) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]; swap; isplitl [H1]; swap; isplitl [H2]; swap; isplitl [H3]; swap; isplitl [H4]; swap; isplitl [H5]; swap; isplitl [H6]; swap; isplitl [H7]; swap; isplitl [H8]; swap
    · iexists _; iexact H9
    all_goals (iexists _; isplitr; swap; iassumption; ipureintro; exact Memref.IsWhole.read_unread _ _)

end Cert.Kernel.Fr

end
-- ==== Proof.K.R1Body.lean ====
import proofs.«120010_j12481174962634_1_alg».proof.Proof.K.R1Run
import Idealize.ShloMosaic.Lib.Pipeline.Value

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, the arrays holding V. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Every input keeps its block; the output ends as the body's arithmetic on the nine input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay1 (k1_pay2 (iblk1 V c 0 t) (iblk1 V c 1 t) (iblk1 V c 2 t) (iblk1 V c 3 t) (iblk1 V c 4 t) (iblk1 V c 7 t) (iblk1 V c 8 t) (iblk1 V c 5 t)) (k1_pay3 (iblk1 V c 6 t))
  Φ _ := Pipeline.ΦA spec1 c
  q _ := fullShare
  owed _ := 0

theorem A_eq1 (c : Dev nD) (w : Fin cfg1.W) : (dat1 V c).A w = V c (Pipeline.arrRef spec1 w) := rfl

/-- The body is handed each input as it hands it back. -/
theorem before1 (c : Dev nD) : ∀ w : Fin cfg1.W, (cfg1.win w).isOut = false → ∀ t d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ =>
    (dat1 V c).before_in_eq_fetched _ rfl (fun _ => rfl) (fun _ _ _ => rfl) (fun _ => rfl)
  | ⟨9, _⟩, h => Bool.noConfusion h

/-- The run applies at the input blocks; its one stored piece covers the output block, which therefore reads back as the stored value. -/
theorem body_obligation1 (c : Dev nD) : BodyObligation (dat1 (F := F) V c) (defs₀ (F := F)) Variants.none () Set.univ := fun t => by
  simp +decide only [bigSep_W1, before1 V c]
  dsimp only [dat1, Dat.owesAt, Dat.bound]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1 c _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)).2 _ _)
  iframe
  isplitl [H9]; · iexists _; iexact H9
  iintro ⟨H0, H1, H2, H3, H4, H5, H6, H7, H8, ⟨%e9, H9⟩⟩
  iframe
  unfold owns; iexists _; isplitr
  swap; · iexact H9
  ipureintro
  rw [View.read_writes_eq_canon _ _ _ (View.cover_of_tiledL _ S1x2048x256.size (by sl_kernel_rfl))]
  unfold kernelRun1
  dsimp only
  sl_unfold_words
  have hz1 : (![0] : Fin 1 → Nat) = fun _ => 0 := by decide
  have hz3 : (![0, 0, 0] : Fin 3 → Nat) = fun _ => 0 := by decide
  have hz4 : (![0, 0, 0, 0] : Fin 4 → Nat) = fun _ => 0 := by decide
  rw [View.canon_unit_zero (S := S1x2048x256) hz3]
  simp only [View.readAt_eq_ld, Memref.IsWhole.read_unread, View.ld_unit_zero (S := S1x2048x256) hz3, View.ld_unit_zero (S := S256) hz1, View.ld_unit_zero (S := S1x1x256x256) hz4]

end Cert.Kernel.Fr

end
-- ==== Proof.K.Run.lean ====
import proofs.«120010_j12481174962634_1_alg».proof.Proof.K.R0Body
import proofs.«120010_j12481174962634_1_alg».proof.Proof.K.R1Body

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)
abbrev V0 (c : Dev nD) (b : Ref sig .tc) : Buf (Elt F) ((c : Thread nD τ).loc b) := W0 m c b
-- After region 0: its arrays hold what the region wrote, every other buffer is as before.
def W1 (c : Dev nD) : Valuation τ sig (Elt F) :=
  Pipeline.withArrays spec0 c (W0 m c) fun w => (dat0 (V0 m) c).arrAt w cfg0.N
abbrev V1 (c : Dev nD) (b : Ref sig .tc) : Buf (Elt F) ((c : Thread nD τ).loc b) := W1 m c b
def W2 (c : Dev nD) : Valuation τ sig (Elt F) :=
  Pipeline.withArrays spec1 c (W1 m c) fun w => (dat1 (V1 m) c).arrAt w cfg1.N

theorem V1_arr (c : Dev nD) (w : Fin cfg0.W) : V1 m c (Pipeline.arrRef spec0 w) = (dat0 (V0 m) c).arrAt w cfg0.N :=
  Pipeline.withArrays_arr spec0 launch0.win.arr_inj c _ _ w
theorem V1_of_ne (c : Dev nD) (b : Ref sig .tc) (hb : ∀ w, Pipeline.arrRef spec0 w ≠ b) : V1 m c b = V0 m c b :=
  Pipeline.withArrays_of_ne spec0 c _ _ b hb
theorem W2_arr (c : Dev nD) (w : Fin cfg1.W) :
    W2 m c (Proc.devRef .tc (Pipeline.arrRef spec1 w)) = (dat1 (V1 m) c).arrAt w cfg1.N :=
  Pipeline.withArrays_arr spec1 launch1.win.arr_inj c _ _ w
theorem W2_of_ne (c : Dev nD) (b : Ref sig .tc) (hb : ∀ w, Pipeline.arrRef spec1 w ≠ b) :
    W2 m c (Proc.devRef .tc b) = V1 m c b :=
  Pipeline.withArrays_of_ne spec1 c _ _ b hb

-- A region leaves a buffer as it found it when the buffer is none of its arrays or the array of an input window.
theorem V1_keep (c : Dev nD) (b : Ref sig .tc) (h : ∀ w, Pipeline.arrRef spec0 w = b → (cfg0.win w).isOut = false) :
    V1 m c b = V0 m c b := by
  by_cases hb : ∃ w, Pipeline.arrRef spec0 w = b
  · obtain ⟨w, rfl⟩ := hb
    exact (V1_arr m c w).trans (((dat0 (V0 m) c).arrAt_in w (h w rfl) _).trans (A_eq0 (V0 m) c w))
  · exact V1_of_ne m c b fun w e => hb ⟨w, e⟩
theorem W2_keep (c : Dev nD) (b : Ref sig .tc) (h : ∀ w, Pipeline.arrRef spec1 w = b → (cfg1.win w).isOut = false) :
    W2 m c (Proc.devRef .tc b) = V1 m c b := by
  by_cases hb : ∃ w, Pipeline.arrRef spec1 w = b
  · obtain ⟨w, rfl⟩ := hb
    exact (W2_arr m c w).trans (((dat1 (V1 m) c).arrAt_in w (h w rfl) _).trans (A_eq1 (V1 m) c w))
  · exact W2_of_ne m c b fun w e => hb ⟨w, e⟩

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
-- What a core holds between regions: every unscoped buffer, at contents W.
abbrev T (c : Dev nD) (W : Valuation τ sig (Elt F)) : sProp 𝕄 :=
  iprop((StableHlo.held (c : Thread nD τ) (Pipeline.ucRefs τ sig) W ∗ ∃ r, prngReg c r)
    ∗ ∃ O, owes (c : Thread nD τ) (0 : CellTallies nD τ sig Unit) O)

theorem toPhiA {gr W : Nat} (spec : Fin W → Pipeline.WinSpec sig gr) (c : Dev nD) (P : sProp 𝕄) :
    iprop((∃ r, prngReg c r) ∗ P ∗ Pipeline.scopedRest spec c) ⊢ Pipeline.ΦA spec c := by
  unfold Pipeline.ΦA
  iintro ⟨Hp, -, Hr⟩
  isplitl [Hr] <;> iassumption
theorem fromPhiA {gr W : Nat} (spec : Fin W → Pipeline.WinSpec sig gr) (c : Dev nD) :
    (Pipeline.ΦA spec c : sProp 𝕄) ⊢ iprop((∃ r, prngReg c r) ∗ BI.emp ∗ Pipeline.scopedRest spec c) := by
  unfold Pipeline.ΦA
  iintro ⟨Hr, Hp⟩
  isplitl [Hp]; · iexact Hp
  isplitr; · iempintro
  iexact Hr

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := T c (W0 m c)
  post c := T c (W1 m c)
  X c := iprop(∃ r, prngReg c r)
  Y c := iprop(∃ r, prngReg c r)
  Z c := Pipeline.unscopedRest spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨⟨Hub, Hp⟩, %O, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists O; isplitr; · ipureintro; exact fun _ _ => Or.inl trivial
      iexact HO
    isplitl [Hp] <;> iassumption
  hin c := (toPhiA spec0 c _).trans (hin0 (V0 m) c)
  hout c := by
    rw [Pipeline.ownSems0_none]
    exact (hout0 (V0 m) c).trans (fromPhiA spec0 c)
  hexit c := by
    have hjoin := Pipeline.unscopedBufs_of_arrays (p := 0) (pcfgs (F := F)) adm launch0.win launch0.arr_whole c (pdats m) ((pdats m 0 c).share_full fun _ => rfl)
      (V0 m c) (V1 m c) ((pdats m 0 c).arrAt · cfg0.N) (fun w => (V1_arr m c w).symm)
      fun b hb => V1_of_ne m c b fun w e => hb (Finset.mem_image.mpr ⟨w, Finset.mem_univ _, e⟩)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%O, -, HO⟩; iexists O; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := T c (W1 m c)
  post c := T c (W2 m c)
  X c := iprop(∃ r, prngReg c r)
  Y c := iprop(∃ r, prngReg c r)
  Z c := Pipeline.unscopedRest spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨⟨Hub, Hp⟩, %O, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists O; isplitr; · ipureintro; exact fun _ _ => Or.inl trivial
      iexact HO
    isplitl [Hp] <;> iassumption
  hin c := toPhiA spec1 c _
  hout c := by
    rw [Pipeline.ownSems0_none]
    exact fromPhiA spec1 c
  hexit c := by
    have hjoin := Pipeline.unscopedBufs_of_arrays (p := 1) (pcfgs (F := F)) adm launch1.win launch1.arr_whole c (pdats m) ((pdats m 1 c).share_full fun _ => rfl)
      (V1 m c) (fun b => W2 m c b) ((pdats m 1 c).arrAt · cfg1.N) (fun w => (W2_arr m c w).symm)
      fun b hb => W2_of_ne m c b fun w e => hb (Finset.mem_image.mpr ⟨w, Finset.mem_univ _, e⟩)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%O, -, HO⟩; iexists O; iexact HO

set_option backward.isDefEq.respectTransparency.types false in
-- The program terminates without fault and leaves every unscoped buffer at W2.
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W2 m c b) :=
  Pipeline.θ_run_regions_kit (pcfgs (F := F)) adm (pdats m) () cellOf_inj emb₁ defs₀ 𝒱₀ L lv m ρ main
    [.region (reg0 m), .region (reg1 m)]
    (fun c Q => by rw [main_segs adm (pdats m) () 𝒱₀ L lv (reg0 m) (reg1 m) c])
    (by simp only [Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      rw [BI.bigSep_emp_const]; iempintro)
    (T₀ := fun c => T c (W0 m c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitr [HO]
      · isplitl [Hh]; · iexact Hh
        iexists _; iexact Hp
      iexists ∅; iexact HO)
    (QY := fun c s => ∀ b ∈ Pipeline.ucRefs τ sig, s.mem ((c : Thread nD τ).1, b) = W2 m c b)
    (hfin := fun c s' => by
      iintro ⟨⟨Hh, -⟩, HSI⟩
      unfold StableHlo.held
      imodintro
      iapply (pointsTo_read_all (Pipeline.ucRefs τ sig) (fun b => ((c : Thread nD τ).1, b)) (W2 m c) s')
      isplitl [Hh] <;> iassumption)
    (hQ := fun s h c => h c)

variable {s : (ℓ : Loc nD τ sig) → Buf (Elt F) ℓ} (c : Dev nD) (h : ∀ b ∈ Pipeline.ucRefs τ sig, s ((c : Thread nD τ).1, b) = W2 m c b)
include h

theorem mem_end (b : Ref sig .tc) (hb : ¬ (Proc.devRef .tc b : DevRef τ sig).isScoped) :
    s ((c.tc : Thread nD τ).loc b) = W2 m c (Proc.devRef .tc b) :=
  h _ (Finset.mem_filter.mpr ⟨StableHlo.devRef_mem_tcRefs b, hb⟩)

-- An unscoped buffer that each region only reads or bypasses ends as launched.
theorem arg_kept (b : Ref sig .tc) (hb : ¬ (Proc.devRef .tc b : DevRef τ sig).isScoped
      ∧ (∀ w, Pipeline.arrRef spec0 w = b → (cfg0.win w).isOut = false)
      ∧ ∀ w, Pipeline.arrRef spec1 w = b → (cfg1.win w).isOut = false) :
    s ((c.tc : Thread nD τ).loc b) = m ((c.tc : Thread nD τ).loc b) :=
  (mem_end m c h b hb.1).trans ((W2_keep m c b hb.2.2).trans (V1_keep m c b hb.2.1))

-- The result buffer ends holding region 1's output array.
theorem res_end : s ((c.tc : Thread nD τ).loc main_v1) = (dat1 (V1 m) c).arrAt 9 cfg1.N :=
  (mem_end m c h main_v1 (by decide)).trans (W2_arr m c 9)

end Cert.Kernel.Fr

end
-- ==== Proof.KI.R0Runs.lean ====
import proofs.«120010_j12481174962634_1_alg».proof.Proof.Gen.KernelIdeal.Launch
import proofs.«120010_j12481174962634_1_alg».proof.Proof.Gen.KernelIdeal.Skeleton
import proofs.«120010_j12481174962634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

abbrev scM0_0 : Memref sig .tc .vmem S256x256 .f32 := Memref.whole cc0_scratch0
abbrev scM0_1 : Memref sig .tc .vmem S256x256 .f32 := Memref.whole cc0_scratch1

/-- The scoped buffers beside the two accumulators, unopened. -/
abbrev restS0 (c : Dev nD) : sProp 𝕄 := Pipeline.scopedRestBut spec0 c [cc0_scratch0, cc0_scratch1]

/-- The launch's invariant with the two accumulators split out, each owned at some contents. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d)) ∗ restS0 c) ∗ (∃ r, prngReg c r)) := by
  unfold Pipeline.ΦA restS0
  rw [Pipeline.scopedRest_split_of_list spec0 c [cc0_scratch0, cc0_scratch1] (by decide) (by decide)]
  simp only [scM0_0, scM0_1, owns_whole, BI.bigSepL_cons_cons, BI.bigSepL_singleton]; try rfl

section
variable (c : Dev nD) (i : grid0.Coords) (arg3 : Memref sig .tc .vmem S1x2048x256 .f32) (harg3 : arg3.IsWhole) (arg4 : Memref sig .tc .vmem S1x2048x256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256 .f32) (harg12 : arg12.IsWhole) (arg13 : Memref sig .tc .vmem S1x1x256x256 .f32) (harg13 : arg13.IsWhole) (arg14 : Memref sig .tc .vmem S1x1x256x256 .f32) (harg14 : arg14.IsWhole) (arg15 : Memref sig .tc .vmem S256x256 .f32) (harg15 : arg15.IsWhole) (arg16 : Memref sig .tc .vmem S256x256 .f32) (harg16 : arg16.IsWhole)
  (x0 x1 : Vec F S1x2048x256 .f32) (x2 x3 x4 x5 x6 x7 x8 x9 : Vec F S256 .f32) (xs0 xs1 : Vec F S256x256 .f32)

set_option maxHeartbeats 4000000 in
/-- The body run whole in each control case: the inputs come back as found, each stored buffer holds its pieces. -/
noncomputable def kernelRun0_A (hc0 : cond0_0 i) (hc1 : ¬cond0_1 i) :
    Σ' (LS0 : List (View.Piece (Elt F) S256x256 .f32)), { LS1 : List (View.Piece (Elt F) S256x256 .f32) //
      ∀ (xi10 xi11 : Vec F S1x1x256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ d, owns (c : Thread nD τ) arg15 fullShare d) ∗ (∃ d, owns (c : Thread nD τ) arg16 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi10 xi11 E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11
    sl_exec (disch := first | exact hc0 | exact hc1)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [HS0]; swap
    · iexists _; iexact HS1
    · iexists _; iexact HS0
    all_goals (iexists _; isplitr; swap; iassumption; ipureintro; exact Memref.IsWhole.read_unread _ _)

set_option maxHeartbeats 4000000 in
noncomputable def kernelRun0_B (hc0 : ¬cond0_0 i) (hc1 : ¬cond0_1 i) :
    Σ' (LS0 : List (View.Piece (Elt F) S256x256 .f32)), { LS1 : List (View.Piece (Elt F) S256x256 .f32) //
      ∀ (xi10 xi11 : Vec F S1x1x256x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare xi10 ∗ owns (c : Thread nD τ) arg14 fullShare xi11 ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun xi10 xi11 E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hfs0; obtain rfl := harg16.eq_unread hfs1
    sl_exec (disch := first | exact hc0 | exact hc1)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [HS0]; swap
    · iexists _; iexact HS1
    · iexists _; iexact HS0
    all_goals (iexists _; isplitr; swap; iassumption; ipureintro; exact Memref.IsWhole.read_unread _ _)

set_option maxHeartbeats 4000000 in
noncomputable def kernelRun0_C (hc0 : ¬cond0_0 i) (hc1 : cond0_1 i) :
    Σ' (L10 : List (View.Piece (Elt F) S1x1x256x256 .f32)) (L11 : List (View.Piece (Elt F) S1x1x256x256 .f32)) (LS0 : List (View.Piece (Elt F) S256x256 .f32)), { LS1 : List (View.Piece (Elt F) S256x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ d, owns (c : Thread nD τ) arg13 fullShare d) ∗ (∃ d, owns (c : Thread nD τ) arg14 fullShare d) ∗ owns (c : Thread nD τ) arg15 fullShare xs0 ∗ owns (c : Thread nD τ) arg16 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0__attn_scores_kernel i arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun E K => ?run⟩
  case run =>
    simp only [cc0__attn_scores_kernel_eq_skeleton]; unfold cc0__attn_scores_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg15.eq_unread hfs0; obtain rfl := harg16.eq_unread hfs1
    sl_exec (disch := first | exact hc0 | exact hc1)
    sl_step
    iapply Hk
    isplitl [H0]; swap; isplitl [H1]; swap; isplitl [H2]; swap; isplitl [H3]; swap; isplitl [H4]; swap; isplitl [H5]; swap; isplitl [H6]; swap; isplitl [H7]; swap; isplitl [H8]; swap; isplitl [H9]; swap; isplitl [H10]; swap; isplitl [H11]; swap; isplitl [HS0]; swap
    · iexists _; iexact HS1
    · iexists _; iexact HS0
    · iexists _; iexact H11
    · iexists _; iexact H10
    all_goals (iexists _; isplitr; swap; iassumption; ipureintro; exact Memref.IsWhole.read_unread _ _)

end

end Cert.KernelIdeal.Fr

end
-- ==== Proof.KI.R0Body.lean ====
import proofs.«120010_j12481174962634_1_alg».proof.Proof.KI.R0Runs
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0] : Fin 1 → Nat) = fun _ => 0 := by decide
theorem hz2 : (![0, 0] : Fin 2 → Nat) = fun _ => 0 := by decide
theorem hz3 : (![0, 0, 0] : Fin 3 → Nat) = fun _ => 0 := by decide
theorem hz4 : (![0, 0, 0, 0] : Fin 4 → Nat) = fun _ => 0 := by decide

variable (V : (c : Dev nD) → (b : Ref sig .tc) → Buf (Elt F) ((c : Thread nD τ).loc b))

/-- One point's step of the two accumulators: each gains the product of the tile's two mapped blocks. -/
def accStep (c : Dev nD) (t : Fin cfg0.N) (p : Vec F S256x256 .f32 × Vec F S256x256 .f32) : Vec F S256x256 .f32 × Vec F S256x256 .f32 :=
  (k0_pay1 (k0_pay9 (iblk0 V c 0 t) (iblk0 V c 2 t) (iblk0 V c 3 t)) (k0_pay10 (iblk0 V c 1 t) (iblk0 V c 4 t) (iblk0 V c 5 t)) p.1,
    k0_pay2 (k0_pay11 (iblk0 V c 0 t) (iblk0 V c 6 t) (iblk0 V c 7 t)) (k0_pay12 (iblk0 V c 1 t) (iblk0 V c 8 t)) (k0_pay13 (iblk0 V c 9 t)) p.2)

/-- The accumulators after point n: from zero at a first tile, else from what the point before left. -/
def accAt0 (c : Dev nD) : (n : ℕ) → n < cfg0.N → Vec F S256x256 .f32 × Vec F S256x256 .f32
  | 0, hn => accStep V c ⟨0, hn⟩ (k0_pay5, k0_pay6)
  | n + 1, hn => accStep V c ⟨n + 1, hn⟩ (if (n + 1) % 8 = 0 then (k0_pay5, k0_pay6) else accAt0 c n (Nat.lt_of_succ_lt hn))

theorem accAt0_first (c : Dev nD) (t : Fin cfg0.N) (h0 : t.val % 8 = 0) : accAt0 V c t.val t.isLt = accStep V c t (k0_pay5, k0_pay6) := by
  obtain ⟨n, hn⟩ := t
  cases n with
  | zero => rfl
  | succ n => exact congrArg (accStep V c ⟨n + 1, hn⟩) (if_pos h0)
theorem accAt0_next (c : Dev nD) (t : Fin cfg0.N) (h0 : ¬t.val % 8 = 0) : accAt0 V c t.val t.isLt = accStep V c t (accAt0 V c (t.val - 1) (Nat.lt_of_le_of_lt (Nat.sub_le _ _) t.isLt)) := by
  obtain ⟨n, hn⟩ := t
  cases n with
  | zero => exact absurd (Nat.zero_mod _) h0
  | succ n => exact congrArg (accStep V c ⟨n + 1, hn⟩) (if_neg h0)

/-- The invariant before position n: the launch's at 0; afterwards the accumulators at what the point before left. -/
def PhiS (c : Dev nD) : (n : ℕ) → n ≤ cfg0.N → sProp 𝕄
  | 0, _ => Pipeline.ΦA spec0 c
  | n + 1, hn => iprop(iprop(iprop(owns (c : Thread nD τ) scM0_0 fullShare (accAt0 V c n hn).1 ∗ owns (c : Thread nD τ) scM0_1 fullShare (accAt0 V c n hn).2) ∗ restS0 c) ∗ (∃ r, prngReg c r))

theorem PhiS_pos (c : Dev nD) (n : ℕ) (h : n ≤ cfg0.N) (hz : n ≠ 0) :
    PhiS V c n h = iprop(iprop(iprop(owns (c : Thread nD τ) scM0_0 fullShare (accAt0 V c (n - 1) (by omega)).1 ∗ owns (c : Thread nD τ) scM0_1 fullShare (accAt0 V c (n - 1) (by omega)).2) ∗ restS0 c) ∗ (∃ r, prngReg c r)) := by
  cases n with
  | zero => exact absurd rfl hz
  | succ n => rfl

/-- At every position the invariant gives the accumulators at some contents. -/
theorem PhiS_forget (c : Dev nD) (n : ℕ) (h : n ≤ cfg0.N) :
    PhiS V c n h ⊢ iprop(iprop(iprop((∃ d, owns (c : Thread nD τ) scM0_0 fullShare d) ∗ (∃ d, owns (c : Thread nD τ) scM0_1 fullShare d)) ∗ restS0 c) ∗ (∃ r, prngReg c r)) := by
  cases n with
  | zero => rw [show PhiS V c 0 h = Pipeline.ΦA spec0 c from rfl, PhiA0_eq]
  | succ n =>
    rw [PhiS_pos V c _ h (Nat.succ_ne_zero n)]
    iintro ⟨⟨⟨HS0, HS1⟩, HR⟩, Hg⟩
    iframe
    isplitl [HS0]; · iexists _; iexact HS0
    iexists _; iexact HS1

/-- Every input keeps its block; a last tile's two outputs are the row softmaxes of the scaled accumulators. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => k0_pay3 (accAt0 V c t.val t.isLt).1
    | ⟨11, _⟩ => k0_pay4 (accAt0 V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := rfl

/-- The body is handed each input as it hands it back. -/
theorem before0 (c : Dev nD) : ∀ w : Fin cfg0.W, (cfg0.win w).isOut = false → ∀ t d, (dat0 V c).before w t d = (dat0 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ =>
    (dat0 V c).before_in_eq_fetched _ rfl (fun _ => rfl) (fun _ _ _ => rfl) (fun _ => rfl)
  | ⟨10, _⟩, h | ⟨11, _⟩, h => Bool.noConfusion h

theorem idle10 : ∀ t : Fin cfg0.N, ¬t.val % 8 = 7 → idle0 10 (grid0.coords t) = true ∧ (win0 10).flush t = false
    ∧ idle0 11 (grid0.coords t) = true ∧ (win0 11).flush t = false := by decide +kernel
theorem live10 : ∀ t : Fin cfg0.N, t.val % 8 = 7 → idle0 10 (grid0.coords t) = false ∧ idle0 11 (grid0.coords t) = false := by decide +kernel

set_option maxHeartbeats 16000000 in
/-- At each point the tile index selects the case; a store's pieces tile its buffer, so it reads back as the body's arithmetic on the blocks. -/
theorem body_obligation0 (c : Dev nD) : BodyObligation (dat0 (F := F) V c) (defs₀ (F := F)) Variants.none () Set.univ := fun t => by
  simp +decide only [bigSep_W0, before0 V c]
  rw [show (dat0 V c).Φ t.succ = iprop(iprop(iprop(owns (c : Thread nD τ) scM0_0 fullShare (accAt0 V c t.val t.isLt).1 ∗ owns (c : Thread nD τ) scM0_1 fullShare (accAt0 V c t.val t.isLt).2) ∗ restS0 c) ∗ (∃ r, prngReg c r)) from rfl,
    show (dat0 V c).Φ t.castSucc = PhiS V c t.val (Nat.le_of_lt t.isLt) from rfl]
  dsimp only [dat0, Dat.owesAt, Dat.bound]
  sl_whnfR [defs₀, Defs.onTc]
  by_cases h0 : t.val % 8 = 0
  · have h1 : ¬t.val % 8 = 7 := by omega
    simp only [idle10 t h1]
    rw [accAt0_first V c t h0]
    unfold accStep; dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    ihave HΦ' := (PhiS_forget V c _ _) $$ HΦ
    icases HΦ' with ⟨⟨⟨HS0, HS1⟩, HR⟩, Hg⟩
    iapply ((kernelRun0_A c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) ((hcond0_0 t).mpr h0) (fun h => h1 ((hcond0_1 t).mp h))).2.2 _ _ _ _)
    iframe
    iintro ⟨H0, H1, H2, H3, H4, H5, H6, H7, H8, H9, H10, H11, ⟨%es0, HS0⟩, ⟨%es1, HS1⟩⟩
    iframe
    isplitl [HS0 HS1]
    · isplitl [HS0]
      · unfold owns; iexists _; isplitr
        swap; · iexact HS0
        ipureintro
        rw [View.read_writes_eq_canon _ _ _ (View.cover_of_tiledL _ S256x256.size (by sl_kernel_rfl))]
        unfold kernelRun0_A; dsimp only; sl_unfold_words
        rw [View.canon_cons_unit_zero (S := S256x256) hz2]
        simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
      unfold owns; iexists _; isplitr
      swap; · iexact HS1
      ipureintro
      rw [View.read_writes_eq_canon _ _ _ (View.cover_of_tiledL _ S256x256.size (by sl_kernel_rfl))]
      unfold kernelRun0_A; dsimp only; sl_unfold_words
      rw [View.canon_cons_unit_zero (S := S256x256) hz2]
      simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
    isplitl [H10]; · iexists _; iexact H10
    iexists _; iexact H11
  · rw [PhiS_pos V c _ _ (by omega : t.val ≠ 0), accAt0_next V c t h0]
    unfold accStep; dsimp only
    by_cases h1 : t.val % 8 = 7
    · simp only [live10 t h1]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_C c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (accAt0 V c (t.val - 1) (Nat.lt_of_le_of_lt (Nat.sub_le _ _) t.isLt)).1 (accAt0 V c (t.val - 1) (Nat.lt_of_le_of_lt (Nat.sub_le _ _) t.isLt)).2 (fun h => h0 ((hcond0_0 t).mp h)) ((hcond0_1 t).mpr h1)).2.2.2.2 _ _)
      iframe
      isplitl [H10]; · iexists _; iexact H10
      isplitl [H11]; · iexists _; iexact H11
      iintro ⟨H0, H1, H2, H3, H4, H5, H6, H7, H8, H9, ⟨%e10, H10⟩, ⟨%e11, H11⟩, ⟨%es0, HS0⟩, ⟨%es1, HS1⟩⟩
      iframe
      isplitl [HS0 HS1]
      · isplitl [HS0]
        · unfold owns; iexists _; isplitr
          swap; · iexact HS0
          ipureintro
          rw [View.read_writes_eq_canon _ _ _ (View.cover_of_tiledL _ S256x256.size (by sl_kernel_rfl))]
          unfold kernelRun0_C; dsimp only; sl_unfold_words
          rw [View.canon_unit_zero (S := S256x256) hz2]
          simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
        unfold owns; iexists _; isplitr
        swap; · iexact HS1
        ipureintro
        rw [View.read_writes_eq_canon _ _ _ (View.cover_of_tiledL _ S256x256.size (by sl_kernel_rfl))]
        unfold kernelRun0_C; dsimp only; sl_unfold_words
        rw [View.canon_unit_zero (S := S256x256) hz2]
        simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
      isplitl [H10]
      · unfold owns; iexists _; isplitr
        swap; · iexact H10
        ipureintro
        rw [View.read_writes_eq_canon _ _ _ (View.cover_of_tiledL _ S1x1x256x256.size (by sl_kernel_rfl))]
        unfold kernelRun0_C; dsimp only; sl_unfold_words
        rw [View.canon_unit_zero (S := S1x1x256x256) hz4]
        simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
      unfold owns; iexists _; isplitr
      swap; · iexact H11
      ipureintro
      rw [View.read_writes_eq_canon _ _ _ (View.cover_of_tiledL _ S1x1x256x256.size (by sl_kernel_rfl))]
      unfold kernelRun0_C; dsimp only; sl_unfold_words
      rw [View.canon_unit_zero (S := S1x1x256x256) hz4]
      simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
    · simp only [idle10 t h1]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
      iapply ((kernelRun0_B c _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (accAt0 V c (t.val - 1) (Nat.lt_of_le_of_lt (Nat.sub_le _ _) t.isLt)).1 (accAt0 V c (t.val - 1) (Nat.lt_of_le_of_lt (Nat.sub_le _ _) t.isLt)).2 (fun h => h0 ((hcond0_0 t).mp h)) (fun h => h1 ((hcond0_1 t).mp h))).2.2 _ _ _ _)
      iframe
      iintro ⟨H0, H1, H2, H3, H4, H5, H6, H7, H8, H9, H10, H11, ⟨%es0, HS0⟩, ⟨%es1, HS1⟩⟩
      iframe
      isplitl [HS0 HS1]
      · isplitl [HS0]
        · unfold owns; iexists _; isplitr
          swap; · iexact HS0
          ipureintro
          rw [View.read_writes_eq_canon _ _ _ (View.cover_of_tiledL _ S256x256.size (by sl_kernel_rfl))]
          unfold kernelRun0_B; dsimp only; sl_unfold_words
          rw [View.canon_unit_zero (S := S256x256) hz2]
          simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
        unfold owns; iexists _; isplitr
        swap; · iexact HS1
        ipureintro
        rw [View.read_writes_eq_canon _ _ _ (View.cover_of_tiledL _ S256x256.size (by sl_kernel_rfl))]
        unfold kernelRun0_B; dsimp only; sl_unfold_words
        rw [View.canon_unit_zero (S := S256x256) hz2]
        simp only [View.readAt_eq_ld, Memref.IsWhole.read_unread, (Memref.isWhole_whole cc0_scratch0).read_unread, (Memref.isWhole_whole cc0_scratch1).read_unread, View.readCov_unit_zero (S := S256x256) _ hz2, View.ld_unit_zero (S := S1x2048x256) hz3, View.ld_unit_zero (S := S256) hz1, View.ld_unit_zero (S := S256x256) hz2]
      isplitl [H10]; · iexists _; iexact H10
      iexists _; iexact H11

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [PhiA0_eq]; exact PhiS_forget V c (Fin.last cfg0.N).val (Nat.le_of_lt_succ (Fin.last cfg0.N).isLt)

end Cert.KernelIdeal.Fr

end
-- ==== Proof.KI.R1Run.lean ====
import proofs.«120010_j12481174962634_1_alg».proof.Proof.Gen.KernelIdeal.Launch
import proofs.«120010_j12481174962634_1_alg».proof.Proof.Gen.KernelIdeal.Skeleton
import proofs.«120010_j12481174962634_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body's triple: the inputs are returned as found, the output holds the stored pieces. -/
noncomputable def kernelRun1 (c : Dev nD) (i : grid1.Coords) (arg3 : Memref sig .tc .vmem S1x2048x256 .f32) (harg3 : arg3.IsWhole) (arg4 : Memref sig .tc .vmem S256 .f32) (harg4 : arg4.IsWhole) (arg5 : Memref sig .tc .vmem S256 .f32) (harg5 : arg5.IsWhole) (arg6 : Memref sig .tc .vmem S256 .f32) (harg6 : arg6.IsWhole) (arg7 : Memref sig .tc .vmem S256 .f32) (harg7 : arg7.IsWhole) (arg8 : Memref sig .tc .vmem S256 .f32) (harg8 : arg8.IsWhole) (arg9 : Memref sig .tc .vmem S256 .f32) (harg9 : arg9.IsWhole) (arg10 : Memref sig .tc .vmem S1x1x256x256 .f32) (harg10 : arg10.IsWhole) (arg11 : Memref sig .tc .vmem S1x1x256x256 .f32) (harg11 : arg11.IsWhole) (arg12 : Memref sig .tc .vmem S1x2048x256 .f32) (harg12 : arg12.IsWhole)
    (x0 : Vec F S1x2048x256 .f32) (x1 x2 x3 x4 x5 x6 : Vec F S256 .f32) (x7 x8 : Vec F S1x1x256x256 .f32) :
    { L9 : List (View.Piece (Elt F) S1x2048x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ (∃ f, arg12.view.loc (c : Thread nD τ) ↦[arg12.view.set]{fullShare} arg12.view.writes (Elt F) f L9)) -∗ K ⟨⟩))
          ⊢ wp frame (wpE (defs₀ (F := F)) Variants.none c none) E (cc1__attn_out_kernel i arg3 harg3 arg4 harg4 arg5 harg5 arg6 harg6 arg7 harg7 arg8 harg8 arg9 harg9 arg10 harg10 arg11 harg11 arg12 harg12) K } := by
  refine ⟨?_, fun E K => ?run⟩
  case run =>
    simp only [cc1__attn_out_kernel_eq_skeleton]; unfold cc1__attn_out_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec
    sl_step
    iapply Hk
    isplitl [H0]; swap; isplitl [H1]; swap; isplitl [H2]; swap; isplitl [H3]; swap; isplitl [H4]; swap; isplitl [H5]; swap; isplitl [H6]; swap; isplitl [H7]; swap; isplitl [H8]; swap
    · iexists _; iexact H9
    all_goals (iexists _; isplitr; swap; iassumption; ipureintro; exact Memref.IsWhole.read_unread _ _)

end Cert.KernelIdeal.Fr

end
-- ==== Proof.KI.R1Body.lean ====
import proofs.«120010_j12481174962634_1_alg».proof.Proof.KI.R1Run
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Block t of window w's array, the arrays holding V. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Every input keeps its block; the output ends as the body's arithmetic on the nine input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => k1_pay1 (k1_pay2 (iblk1 V c 0 t) (iblk1 V c 1 t) (iblk1 V c 2 t) (iblk1 V c 3 t) (iblk1 V c 4 t) (iblk1 V c 7 t) (iblk1 V c 8 t) (iblk1 V c 5 t)) (k1_pay3 (iblk1 V c 6 t))
  Φ _ := Pipeline.ΦA spec1 c
  q _ := fullShare
  owed _ := 0

theorem A_eq1 (c : Dev nD) (w : Fin cfg1.W) : (dat1 V c).A w = V c (Pipeline.arrRef spec1 w) := rfl

/-- The body is handed each input as it hands it back. -/
theorem before1 (c : Dev nD) : ∀ w : Fin cfg1.W, (cfg1.win w).isOut = false → ∀ t d, (dat1 V c).before w t d = (dat1 V c).after w t
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ =>
    (dat1 V c).before_in_eq_fetched _ rfl (fun _ => rfl) (fun _ _ _ => rfl) (fun _ => rfl)
  | ⟨9, _⟩, h => Bool.noConfusion h

/-- The run applies at the input blocks; its one stored piece covers the output block, which therefore reads back as the stored value. -/
theorem body_obligation1 (c : Dev nD) : BodyObligation (dat1 (F := F) V c) (defs₀ (F := F)) Variants.none () Set.univ := fun t => by
  simp +decide only [bigSep_W1, before1 V c]
  dsimp only [dat1, Dat.owesAt, Dat.bound]
  sl_whnfR [defs₀, Defs.onTc]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun1 c _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t)).2 _ _)
  iframe
  isplitl [H9]; · iexists _; iexact H9
  iintro ⟨H0, H1, H2, H3, H4, H5, H6, H7, H8, ⟨%e9, H9⟩⟩
  iframe
  unfold owns; iexists _; isplitr
  swap; · iexact H9
  ipureintro
  rw [View.read_writes_eq_canon _ _ _ (View.cover_of_tiledL _ S1x2048x256.size (by sl_kernel_rfl))]
  unfold kernelRun1
  dsimp only
  sl_unfold_words
  have hz1 : (![0] : Fin 1 → Nat) = fun _ => 0 := by decide
  have hz3 : (![0, 0, 0] : Fin 3 → Nat) = fun _ => 0 := by decide
  have hz4 : (![0, 0, 0, 0] : Fin 4 → Nat) = fun _ => 0 := by decide
  rw [View.canon_unit_zero (S := S1x2048x256) hz3]
  simp only [View.readAt_eq_ld, Memref.IsWhole.read_unread, View.ld_unit_zero (S := S1x2048x256) hz3, View.ld_unit_zero (S := S256) hz1, View.ld_unit_zero (S := S1x1x256x256) hz4]

end Cert.KernelIdeal.Fr

end
-- ==== Proof.KI.Run.lean ====
import proofs.«120010_j12481174962634_1_alg».proof.Proof.KI.R0Body
import proofs.«120010_j12481174962634_1_alg».proof.Proof.KI.R1Body

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 (c : Dev nD) : Valuation τ sig (Elt F) := fun b => m (c, b)
abbrev V0 (c : Dev nD) (b : Ref sig .tc) : Buf (Elt F) ((c : Thread nD τ).loc b) := W0 m c b
-- After region 0: its arrays hold what the region wrote, every other buffer is as before.
def W1 (c : Dev nD) : Valuation τ sig (Elt F) :=
  Pipeline.withArrays spec0 c (W0 m c) fun w => (dat0 (V0 m) c).arrAt w cfg0.N
abbrev V1 (c : Dev nD) (b : Ref sig .tc) : Buf (Elt F) ((c : Thread nD τ).loc b) := W1 m c b
def W2 (c : Dev nD) : Valuation τ sig (Elt F) :=
  Pipeline.withArrays spec1 c (W1 m c) fun w => (dat1 (V1 m) c).arrAt w cfg1.N

theorem V1_arr (c : Dev nD) (w : Fin cfg0.W) : V1 m c (Pipeline.arrRef spec0 w) = (dat0 (V0 m) c).arrAt w cfg0.N :=
  Pipeline.withArrays_arr spec0 launch0.win.arr_inj c _ _ w
theorem V1_of_ne (c : Dev nD) (b : Ref sig .tc) (hb : ∀ w, Pipeline.arrRef spec0 w ≠ b) : V1 m c b = V0 m c b :=
  Pipeline.withArrays_of_ne spec0 c _ _ b hb
theorem W2_arr (c : Dev nD) (w : Fin cfg1.W) :
    W2 m c (Proc.devRef .tc (Pipeline.arrRef spec1 w)) = (dat1 (V1 m) c).arrAt w cfg1.N :=
  Pipeline.withArrays_arr spec1 launch1.win.arr_inj c _ _ w
theorem W2_of_ne (c : Dev nD) (b : Ref sig .tc) (hb : ∀ w, Pipeline.arrRef spec1 w ≠ b) :
    W2 m c (Proc.devRef .tc b) = V1 m c b :=
  Pipeline.withArrays_of_ne spec1 c _ _ b hb

-- A region leaves a buffer as it found it when the buffer is none of its arrays or the array of an input window.
theorem V1_keep (c : Dev nD) (b : Ref sig .tc) (h : ∀ w, Pipeline.arrRef spec0 w = b → (cfg0.win w).isOut = false) :
    V1 m c b = V0 m c b := by
  by_cases hb : ∃ w, Pipeline.arrRef spec0 w = b
  · obtain ⟨w, rfl⟩ := hb
    exact (V1_arr m c w).trans (((dat0 (V0 m) c).arrAt_in w (h w rfl) _).trans (A_eq0 (V0 m) c w))
  · exact V1_of_ne m c b fun w e => hb ⟨w, e⟩
theorem W2_keep (c : Dev nD) (b : Ref sig .tc) (h : ∀ w, Pipeline.arrRef spec1 w = b → (cfg1.win w).isOut = false) :
    W2 m c (Proc.devRef .tc b) = V1 m c b := by
  by_cases hb : ∃ w, Pipeline.arrRef spec1 w = b
  · obtain ⟨w, rfl⟩ := hb
    exact (W2_arr m c w).trans (((dat1 (V1 m) c).arrAt_in w (h w rfl) _).trans (A_eq1 (V1 m) c w))
  · exact W2_of_ne m c b fun w e => hb ⟨w, e⟩

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
-- What a core holds between regions: every unscoped buffer, at contents W.
abbrev T (c : Dev nD) (W : Valuation τ sig (Elt F)) : sProp 𝕄 :=
  iprop((StableHlo.held (c : Thread nD τ) (Pipeline.ucRefs τ sig) W ∗ ∃ r, prngReg c r)
    ∗ ∃ O, owes (c : Thread nD τ) (0 : CellTallies nD τ sig Unit) O)

theorem toPhiA {gr W : Nat} (spec : Fin W → Pipeline.WinSpec sig gr) (c : Dev nD) (P : sProp 𝕄) :
    iprop((∃ r, prngReg c r) ∗ P ∗ Pipeline.scopedRest spec c) ⊢ Pipeline.ΦA spec c := by
  unfold Pipeline.ΦA
  iintro ⟨Hp, -, Hr⟩
  isplitl [Hr] <;> iassumption
theorem fromPhiA {gr W : Nat} (spec : Fin W → Pipeline.WinSpec sig gr) (c : Dev nD) :
    (Pipeline.ΦA spec c : sProp 𝕄) ⊢ iprop((∃ r, prngReg c r) ∗ BI.emp ∗ Pipeline.scopedRest spec c) := by
  unfold Pipeline.ΦA
  iintro ⟨Hr, Hp⟩
  isplitl [Hp]; · iexact Hp
  isplitr; · iempintro
  iexact Hr

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := T c (W0 m c)
  post c := T c (W1 m c)
  X c := iprop(∃ r, prngReg c r)
  Y c := iprop(∃ r, prngReg c r)
  Z c := Pipeline.unscopedRest spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    iintro ⟨⟨⟨Hub, Hp⟩, %O, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists O; isplitr; · ipureintro; exact fun _ _ => Or.inl trivial
      iexact HO
    isplitl [Hp] <;> iassumption
  hin c := (toPhiA spec0 c _).trans (hin0 (V0 m) c)
  hout c := by
    rw [Pipeline.ownSems0_none]
    exact (hout0 (V0 m) c).trans (fromPhiA spec0 c)
  hexit c := by
    have hjoin := Pipeline.unscopedBufs_of_arrays (p := 0) (pcfgs (F := F)) adm launch0.win launch0.arr_whole c (pdats m) ((pdats m 0 c).share_full fun _ => rfl)
      (V0 m c) (V1 m c) ((pdats m 0 c).arrAt · cfg0.N) (fun w => (V1_arr m c w).symm)
      fun b hb => V1_of_ne m c b fun w e => hb (Finset.mem_image.mpr ⟨w, Finset.mem_univ _, e⟩)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%O, -, HO⟩; iexists O; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := T c (W1 m c)
  post c := T c (W2 m c)
  X c := iprop(∃ r, prngReg c r)
  Y c := iprop(∃ r, prngReg c r)
  Z c := Pipeline.unscopedRest spec1 c (V1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    iintro ⟨⟨⟨Hub, Hp⟩, %O, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists O; isplitr; · ipureintro; exact fun _ _ => Or.inl trivial
      iexact HO
    isplitl [Hp] <;> iassumption
  hin c := toPhiA spec1 c _
  hout c := by
    rw [Pipeline.ownSems0_none]
    exact fromPhiA spec1 c
  hexit c := by
    have hjoin := Pipeline.unscopedBufs_of_arrays (p := 1) (pcfgs (F := F)) adm launch1.win launch1.arr_whole c (pdats m) ((pdats m 1 c).share_full fun _ => rfl)
      (V1 m c) (fun b => W2 m c b) ((pdats m 1 c).arrAt · cfg1.N) (fun w => (W2_arr m c w).symm)
      fun b hb => W2_of_ne m c b fun w e => hb (Finset.mem_image.mpr ⟨w, Finset.mem_univ _, e⟩)
    rw [Pipeline.unscopedBufs_held] at hjoin
    iintro ⟨Ha, HO, HY, Hrest⟩
    imodintro
    isplitr [HO]
    · isplitl [Ha Hrest]
      · iapply hjoin; isplitl [Ha] <;> iassumption
      iexact HY
    unfold Pipeline.Dat.owesAt Pipeline.owesWithin
    icases HO with ⟨%O, -, HO⟩; iexists O; iexact HO

set_option backward.isDefEq.respectTransparency.types false in
-- The program terminates without fault and leaves every unscoped buffer at W2.
theorem run_all (ρ : Dev nD → PrngReg) : θ_run defs (onTc (τ := τ) (main (F := F))) ⟨m, fun _ => 0, ρ⟩ (fun r => ∀ c : Dev nD,
      ∀ b ∈ Pipeline.ucRefs τ sig, r.2.mem ((c : Thread nD τ).1, b) = W2 m c b) :=
  Pipeline.θ_run_regions_kit (pcfgs (F := F)) adm (pdats m) () cellOf_inj emb₁ defs₀ 𝒱₀ L lv m ρ main
    [.region (reg0 m), .region (reg1 m)]
    (fun c Q => by rw [main_segs adm (pdats m) () 𝒱₀ L lv (reg0 m) (reg1 m) c])
    (by simp only [Pipeline.Seg.pipes_region, Pipeline.Seg.pipes_nil]; decide)
    (O₀ := 0) (hL := fun _ _ => rfl) (G := fun _ => BI.emp)
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      rw [BI.bigSep_emp_const]; iempintro)
    (T₀ := fun c => T c (W0 m c))
    (Tₙ := fun c => iprop(StableHlo.held (c : Thread nD τ) (Pipeline.ucRefs τ sig) (W2 m c) ∗ ∃ r, prngReg c r))
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitr [HO]
      · isplitl [Hh]; · iexact Hh
        iexists _; iexact Hp
      iexists ∅; iexact HO)
    (QY := fun c s => ∀ b ∈ Pipeline.ucRefs τ sig, s.mem ((c : Thread nD τ).1, b) = W2 m c b)
    (hfin := fun c s' => by
      iintro ⟨⟨Hh, -⟩, HSI⟩
      unfold StableHlo.held
      imodintro
      iapply (pointsTo_read_all (Pipeline.ucRefs τ sig) (fun b => ((c : Thread nD τ).1, b)) (W2 m c) s')
      isplitl [Hh] <;> iassumption)
    (hQ := fun s h c => h c)

variable {s : (ℓ : Loc nD τ sig) → Buf (Elt F) ℓ} (c : Dev nD) (h : ∀ b ∈ Pipeline.ucRefs τ sig, s ((c : Thread nD τ).1, b) = W2 m c b)
include h

theorem mem_end (b : Ref sig .tc) (hb : ¬ (Proc.devRef .tc b : DevRef τ sig).isScoped) :
    s ((c.tc : Thread nD τ).loc b) = W2 m c (Proc.devRef .tc b) :=
  h _ (Finset.mem_filter.mpr ⟨StableHlo.devRef_mem_tcRefs b, hb⟩)

-- An unscoped buffer that each region only reads or bypasses ends as launched.
theorem arg_kept (b : Ref sig .tc) (hb : ¬ (Proc.devRef .tc b : DevRef τ sig).isScoped
      ∧ (∀ w, Pipeline.arrRef spec0 w = b → (cfg0.win w).isOut = false)
      ∧ ∀ w, Pipeline.arrRef spec1 w = b → (cfg1.win w).isOut = false) :
    s ((c.tc : Thread nD τ).loc b) = m ((c.tc : Thread nD τ).loc b) :=
  (mem_end m c h b hb.1).trans ((W2_keep m c b hb.2.2).trans (V1_keep m c b hb.2.1))

-- The result buffer ends holding region 1's output array.
theorem res_end : s ((c.tc : Thread nD τ).loc main_v1) = (dat1 (V1 m) c).arrAt 9 cfg1.N :=
  (mem_end m c h main_v1 (by decide)).trans (W2_arr m c 9)

end Cert.KernelIdeal.Fr

end
-- ==== Proof.Frames.lean ====
import proofs.«120010_j12481174962634_1_alg».proof.Defs
import proofs.«120010_j12481174962634_1_alg».proof.Proof.K.Run
import proofs.«120010_j12481174962634_1_alg».proof.Proof.KI.Run
import proofs.«120010_j12481174962634_1_alg».proof.Proof.Gen.ReferenceIdeal.Run
import proofs.«120010_j12481174962634_1_alg».proof.Proof.Gen.Pre_finite_inputs

noncomputable section

namespace Cert.Proof.Frames

open Idealize.ShloMosaic Idealize.ShloMosaic.TcCoe Idealize.SL.Sem

theorem frame_k : Cert.frame_Kernel := fun m ρ _ =>
  (θ_run _ _ _).mono (fun _ h c => by and_intros <;> exact Cert.Kernel.Fr.arg_kept m c (h c) _ (by decide))
    (Cert.Kernel.Fr.run_all (F := Bits) m ρ)
theorem frame_ki : Cert.frame_KernelIdeal := fun m ρ _ =>
  (θ_run _ _ _).mono (fun _ h c => by and_intros <;> exact Cert.KernelIdeal.Fr.arg_kept m c (h c) _ (by decide))
    (Cert.KernelIdeal.Fr.run_all (F := Ideal) m ρ)
theorem frame_ri : Cert.frame_ReferenceIdeal := fun m ρ _ =>
  (θ_run Cert.ReferenceIdeal.defs _ _).mono (fun _ h c => (h c).2) (Cert.ReferenceIdeal.Value.run (F := Ideal) m ρ)

end Cert.Proof.Frames

end
-- ==== Proof.Spec.lean ====
import Idealize.ShloMosaic.PureOps.Ideal
import Idealize.ShloMosaic.Lib.ValueIdx

noncomputable section

namespace Cert.Spec

open Idealize.ShloMosaic Idealize.ShloMosaic.ValueIdx

abbrev SQ : Shape := ⟨3, ![2, 16384, 1024]⟩
abbrev SW : Shape := ⟨1, ![1024]⟩
abbrev SA : Shape := ⟨4, ![2, 4, 256, 256]⟩

-- Channel h * 256 + d: sub-channel d of head h.
def ch (h : Fin 4) (d : Fin 256) : Fin 1024 := ⟨h.val * 256 + d.val, by omega⟩

def aff (x : FVec Ideal SQ .f32) (w b : FVec Ideal SW .f32) (bi : Fin 2) (n : Fin 16384) (cc : Fin 1024) : EReal :=
  x (ix3 bi n cc) * w (ix1 cc) + b (ix1 cc)

-- 1 / 32
def scale : EReal := Ideal.ofBits .f32 0x3D000000#32
-- minus infinity
def negInf : EReal := Ideal.ofBits .f32 0xFF800000#32
def two : EReal := Ideal.ofBits .f32 0x40000000#32

-- The two mapped inputs of one (batch, head) contracted over all positions.
def score (q k : FVec Ideal SQ .f32) (wq bq wk bk : FVec Ideal SW .f32) (bi : Fin 2) (h : Fin 4) (d e : Fin 256) : EReal :=
  ∑ n : Fin 16384, aff q wq bq bi n (ch h d) * aff k wk bk bi n (ch h e)

def rowMax (z : Fin 256 → EReal) : EReal :=
  max negInf ((Finset.univ : Finset (Fin 256)).fold max negInf z)

def softmaxRow (z : Fin 256 → EReal) (e : Fin 256) : EReal :=
  Ideal.div (Ideal.exp (z e - rowMax z)) (∑ e' : Fin 256, Ideal.exp (z e' - rowMax z))

-- The attention matrix of every (batch, head): the softmax over e of score / 32.
def attn (q k : FVec Ideal SQ .f32) (wq bq wk bk : FVec Ideal SW .f32) : FVec Ideal SA .f32 := fun j =>
  softmaxRow (fun e => score q k wq bq wk bk ⟨(j 0).val, (j 0).isLt⟩ ⟨(j 1).val, (j 1).isLt⟩ ⟨(j 2).val, (j 2).isLt⟩ e * scale)
    ⟨(j 3).val, (j 3).isLt⟩

def branch (v : FVec Ideal SQ .f32) (wv bv : FVec Ideal SW .f32) (a : FVec Ideal SA .f32)
    (bi : Fin 2) (n : Fin 16384) (h : Fin 4) (d : Fin 256) : EReal :=
  ∑ e : Fin 256, aff v wv bv bi n (ch h e) * a (ix4 bi h d e)

-- The result from the two attention matrices: twice the sum of the branches, mapped per channel.
def outOf (v : FVec Ideal SQ .f32) (ag al : FVec Ideal SA .f32) (wvg bvg wvl bvl wp bp : FVec Ideal SW .f32) :
    FVec Ideal SQ .f32 := fun j =>
  let bi : Fin 2 := ⟨(j 0).val, (j 0).isLt⟩
  let n : Fin 16384 := ⟨(j 1).val, (j 1).isLt⟩
  let cc : Fin 1024 := ⟨(j 2).val, (j 2).isLt⟩
  let h : Fin 4 := ⟨cc.val / 256, by omega⟩
  let d : Fin 256 := ⟨cc.val % 256, by omega⟩
  (two * (branch v wvg bvg ag bi n h d + branch v wvl bvl al bi n h d)) * wp (ix1 cc) + bp (ix1 cc)

def G (q k v : FVec Ideal SQ .f32) (wqg bqg wkg bkg wvg bvg wql bql wkl bkl wvl bvl wp bp : FVec Ideal SW .f32) : FVec Ideal SQ .f32 :=
  outOf v (attn q k wqg bqg wkg bkg) (attn q k wql bql wkl bkl) wvg bvg wvl bvl wp bp

end Cert.Spec

end
-- ==== Proof.KI.R0Pay.lean ====
import proofs.«120010_j12481174962634_1_alg».proof.Proof.Gen.KernelIdeal.Skeleton
import proofs.«120010_j12481174962634_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

theorem squeeze_apply (x : Vec Ideal S1x2048x256 .f32) (h : S1x2048x256.ShapeCasts S2048x256) (r : Fin 2048) (d : Fin 256) :
    shapeCast S2048x256 x h (ix2 r d) = x (ix3 0 r d) :=
  shapeCast_1ab_ab_apply x h r d

theorem rowcast_apply (w : Vec Ideal S256 .f32) (h : S256.ShapeCasts S1x256) (hb : S1x256.Broadcasts S2048x256) (r : Fin 2048) (d : Fin 256) :
    broadcastTo S2048x256 (shapeCast S1x256 w h) hb (ix2 r d) = w (ix1 d) :=
  (broadcastTo_1b_ab_apply (shapeCast S1x256 w h) hb r d).trans (shapeCast_a_1a_apply w h 0 d)

theorem lhsD_0 (j : S256x256.Idx) (q : dot_S2048x256_S2048x256_S256x256_0_0_1_1_n_n.contr.Idx) :
    (dot_S2048x256_S2048x256_S256x256_0_0_1_1_n_n.lhsIdx j q 0).val = (q ⟨0, by decide⟩).val :=
  dot_S2048x256_S2048x256_S256x256_0_0_1_1_n_n.lhsIdx_val_of_single rfl j q
theorem lhsD_1 (j : S256x256.Idx) (q : dot_S2048x256_S2048x256_S256x256_0_0_1_1_n_n.contr.Idx) :
    (dot_S2048x256_S2048x256_S256x256_0_0_1_1_n_n.lhsIdx j q 1).val = (j 0).val := by
  unfold DotDims.lhsIdx
  rw [dif_neg (show ¬(1 : Fin S2048x256.rank) ∈ dot_S2048x256_S2048x256_S256x256_0_0_1_1_n_n.lhsBatch by decide), dif_pos (show (1 : Fin S2048x256.rank) ∈ dot_S2048x256_S2048x256_S256x256_0_0_1_1_n_n.lhsNonContracting by decide)]
  rfl
theorem rhsD_0 (j : S256x256.Idx) (q : dot_S2048x256_S2048x256_S256x256_0_0_1_1_n_n.contr.Idx) :
    (dot_S2048x256_S2048x256_S256x256_0_0_1_1_n_n.rhsIdx j q 0).val = (q ⟨0, by decide⟩).val :=
  dot_S2048x256_S2048x256_S256x256_0_0_1_1_n_n.rhsIdx_val_of_single rfl j q
theorem rhsD_1 (j : S256x256.Idx) (q : dot_S2048x256_S2048x256_S256x256_0_0_1_1_n_n.contr.Idx) :
    (dot_S2048x256_S2048x256_S256x256_0_0_1_1_n_n.rhsIdx j q 1).val = (j 1).val := by
  unfold DotDims.rhsIdx
  rw [dif_neg (show ¬(1 : Fin S2048x256.rank) ∈ dot_S2048x256_S2048x256_S256x256_0_0_1_1_n_n.rhsBatch by decide), dif_pos (show (1 : Fin S2048x256.rank) ∈ dot_S2048x256_S2048x256_S256x256_0_0_1_1_n_n.rhsNonContracting by decide)]
  rfl

theorem tile_matmul (a b : FVec Ideal S2048x256 .bf16) (d e : Fin 256) :
    matmul dot_S2048x256_S2048x256_S256x256_0_0_1_1_n_n none a b (constant (F := Ideal) S256x256 .f32 0x00000000#32) (ix2 d e)
      = ∑ r : Fin 2048, a (ix2 r d) * b (ix2 r e) := by
  simp only [matmul]
  rw [Ideal.matmul_constant_zero_apply, ← Equiv.sum_comp (contrEquiv1 dot_S2048x256_S2048x256_S256x256_0_0_1_1_n_n 2048 rfl rfl).symm]
  refine Finset.sum_congr rfl fun k _ => ?_
  have hk := contrEquiv1_symm_val dot_S2048x256_S2048x256_S256x256_0_0_1_1_n_n 2048 rfl rfl k
  have el : dot_S2048x256_S2048x256_S256x256_0_0_1_1_n_n.lhsIdx (ix2 d e) ((contrEquiv1 dot_S2048x256_S2048x256_S256x256_0_0_1_1_n_n 2048 rfl rfl).symm k) = ix2 k d := funext fun ax => Fin.ext (by
    match ax with
    | ⟨0, _⟩ => exact (lhsD_0 _ _).trans hk
    | ⟨1, _⟩ => exact lhsD_1 _ _)
  have er : dot_S2048x256_S2048x256_S256x256_0_0_1_1_n_n.rhsIdx (ix2 d e) ((contrEquiv1 dot_S2048x256_S2048x256_S256x256_0_0_1_1_n_n 2048 rfl rfl).symm k) = ix2 k e := funext fun ax => Fin.ext (by
    match ax with
    | ⟨0, _⟩ => exact (rhsD_0 _ _).trans hk
    | ⟨1, _⟩ => exact rhsD_1 _ _)
  rw [el, er]

theorem col_apply {α : Type} (v : S256.Idx → α) (h : S256.ShapeCasts S256x1) (d : Fin 256) (u : Fin 1) :
    shapeCast S256x1 v h (ix2 d u) = v (ix1 d) :=
  shapeCast_apply v h _ _ (by
    have hu : u.val = 0 := by omega
    rw [Shape.rowMajor_val_one, Shape.rowMajor_val_two]
    show d.val = d.val * 1 + u.val
    omega)

theorem colcast_apply {α : Type} (c : S256x1.Idx → α) (h : S256x1.Broadcasts S256x256) (d e : Fin 256) :
    broadcastTo S256x256 c h (ix2 d e) = c (ix2 d (0 : Fin 1)) := by
  refine broadcastTo_apply c h (ix2 d e) (ix2 d (0 : Fin 1)) fun ax => ?_
  match ax with
  | ⟨0, _⟩ =>
    show d.val = if (256 : Nat) = 1 then 0 else d.val
    rw [if_neg (by decide)]
  | ⟨1, _⟩ => rfl

theorem keep_apply {α : Type} (v : S256.Idx → α) (h : S256.ShapeCasts S256x1) (hb : S256x1.Broadcasts S256x256) (d e : Fin 256) :
    broadcastTo S256x256 (shapeCast S256x1 v h) hb (ix2 d e) = v (ix1 d) :=
  (colcast_apply _ hb d e).trans (col_apply v h d 0)

theorem cast11_apply {α : Type} (y : S256x256.Idx → α) (h : S256x256.ShapeCasts S1x1x256x256) (d e : Fin 256) :
    shapeCast S1x1x256x256 y h (ix4 (0 : Fin 1) (0 : Fin 1) d e) = y (ix2 d e) :=
  shapeCast_apply y h _ _ (by
    rw [Shape.rowMajor_val_two, Shape.rowMajor_val_four]
    show d.val * 256 + e.val = ((0 * 1 + 0) * 256 + d.val) * 256 + e.val
    omega)

theorem lift_row (hr : S256x256.Reduces [1] S256) (d e : Fin 256) : hr.lift (ix1 d) e = ix2 d e :=
  funext fun ax => Fin.ext (by match ax with | ⟨0, _⟩ => rfl | ⟨1, _⟩ => rfl)

theorem rowmax_apply (z : FVec Ideal S256x256 .f32) (hr : S256x256.Reduces [1] S256) (hφ : FKind.Formats .f32)
    (hacc : (0xFF800000#32 : BitVec 32) = FKind.maximumf.neutral .f32 hφ) (d : Fin 256) :
    maximumf (broadcast S256 (Ideal.ofBits .f32 0xFF800000#32)) (multiReduction .maximumf [1] S256 z 0xFF800000#32 hr hφ hacc) (ix1 d)
      = Cert.Spec.rowMax (fun e' => z (ix2 d e')) := by
  rw [maximumf_apply, Ideal.multiReduction_maximumf_single]
  have ez : (z ∘ hr.lift (ix1 d)) = fun e' : Fin 256 => z (ix2 d e') :=
    funext fun (e' : Fin 256) => by
      show z (hr.lift (ix1 d) e') = _
      rw [lift_row]
  rw [ez]
  rfl

theorem rowsum_apply (p : FVec Ideal S256x256 .f32) (hr : S256x256.Reduces [1] S256) (hφ : FKind.Formats .f32)
    (hacc : (0x00000000#32 : BitVec 32) = FKind.add.neutral .f32 hφ) (d : Fin 256) :
    multiReduction .add [1] S256 p 0x00000000#32 hr hφ hacc (ix1 d) = ∑ e' : Fin 256, p (ix2 d e') := by
  rw [Ideal.multiReduction_add_single]
  refine Finset.sum_congr rfl fun (e' : Fin 256) _ => ?_
  rw [lift_row]

def smx (acc : Vec Ideal S256x256 .f32) (hr : S256x256.Reduces [1] S256) (hφ : FKind.Formats .f32)
    (hm : (0xFF800000#32 : BitVec 32) = FKind.maximumf.neutral .f32 hφ) (ha : (0x00000000#32 : BitVec 32) = FKind.add.neutral .f32 hφ)
    (hc : S256.ShapeCasts S256x1) (hb : S256x1.Broadcasts S256x256) : FVec Ideal S256x256 .f32 :=
  let z : FVec Ideal S256x256 .f32 := mulf acc (broadcast S256x256 (Ideal.ofBits .f32 0x3D000000#32))
  let m : FVec Ideal S256x256 .f32 := broadcastTo S256x256 (shapeCast S256x1
    (maximumf (broadcast S256 (Ideal.ofBits .f32 0xFF800000#32)) (multiReduction .maximumf [1] S256 z 0xFF800000#32 hr hφ hm)) hc) hb
  let p : FVec Ideal S256x256 .f32 := exp (subf z m)
  divf p (broadcastTo S256x256 (shapeCast S256x1 (multiReduction .add [1] S256 p 0x00000000#32 hr hφ ha) hc) hb)

theorem smx_apply (acc : Vec Ideal S256x256 .f32) (hr : S256x256.Reduces [1] S256) (hφ : FKind.Formats .f32)
    (hm : (0xFF800000#32 : BitVec 32) = FKind.maximumf.neutral .f32 hφ) (ha : (0x00000000#32 : BitVec 32) = FKind.add.neutral .f32 hφ)
    (hc : S256.ShapeCasts S256x1) (hb : S256x1.Broadcasts S256x256) (d e : Fin 256) :
    smx acc hr hφ hm ha hc hb (ix2 d e) = Cert.Spec.softmaxRow (fun e' => acc (ix2 d e') * Cert.Spec.scale) e := by
  have hp : ∀ e' : Fin 256,
      (exp (subf (mulf acc (broadcast S256x256 (Ideal.ofBits .f32 0x3D000000#32)))
        (broadcastTo S256x256 (shapeCast S256x1
          (maximumf (broadcast S256 (Ideal.ofBits .f32 0xFF800000#32)) (multiReduction .maximumf [1] S256
            (mulf acc (broadcast S256x256 (Ideal.ofBits .f32 0x3D000000#32))) 0xFF800000#32 hr hφ hm)) hc) hb)) : FVec Ideal S256x256 .f32) (ix2 d e')
        = Ideal.exp (acc (ix2 d e') * Cert.Spec.scale - Cert.Spec.rowMax (fun e'' => acc (ix2 d e'') * Cert.Spec.scale)) := by
    intro e'
    show Ideal.exp (acc (ix2 d e') * Ideal.ofBits .f32 0x3D000000#32 - broadcastTo S256x256 (shapeCast S256x1
          (maximumf (broadcast S256 (Ideal.ofBits .f32 0xFF800000#32)) (multiReduction .maximumf [1] S256
            (mulf acc (broadcast S256x256 (Ideal.ofBits .f32 0x3D000000#32))) 0xFF800000#32 hr hφ hm)) hc) hb (ix2 d e')) = _
    rw [keep_apply, rowmax_apply]
    rfl
  unfold smx
  dsimp only
  rw [divf_apply, hp e, keep_apply, rowsum_apply]
  unfold Cert.Spec.softmaxRow
  refine congrArg (Ideal.div _) (Finset.sum_congr rfl fun e' _ => ?_)
  rw [hp e']

theorem k0_pay9_apply (x0 : Vec Ideal S1x2048x256 .f32) (w b : Vec Ideal S256 .f32) (r : Fin 2048) (d : Fin 256) :
    k0_pay9 (F := Ideal) x0 w b (ix2 r d) = x0 (ix3 0 r d) * w (ix1 d) + b (ix1 d) := by
  unfold k0_pay9 k0_pay7
  show shapeCast S2048x256 x0 _ (ix2 r d) * broadcastTo S2048x256 (shapeCast S1x256 w _) _ (ix2 r d)
    + broadcastTo S2048x256 (shapeCast S1x256 b _) _ (ix2 r d) = _
  rw [squeeze_apply, rowcast_apply, rowcast_apply]
theorem k0_pay10_apply (x1 : Vec Ideal S1x2048x256 .f32) (w b : Vec Ideal S256 .f32) (r : Fin 2048) (d : Fin 256) :
    k0_pay10 (F := Ideal) x1 w b (ix2 r d) = x1 (ix3 0 r d) * w (ix1 d) + b (ix1 d) := by
  unfold k0_pay10 k0_pay8
  show shapeCast S2048x256 x1 _ (ix2 r d) * broadcastTo S2048x256 (shapeCast S1x256 w _) _ (ix2 r d)
    + broadcastTo S2048x256 (shapeCast S1x256 b _) _ (ix2 r d) = _
  rw [squeeze_apply, rowcast_apply, rowcast_apply]
theorem k0_pay11_apply (x0 : Vec Ideal S1x2048x256 .f32) (w b : Vec Ideal S256 .f32) (r : Fin 2048) (d : Fin 256) :
    k0_pay11 (F := Ideal) x0 w b (ix2 r d) = x0 (ix3 0 r d) * w (ix1 d) + b (ix1 d) := k0_pay9_apply x0 w b r d
theorem k0_pay12_apply (x1 : Vec Ideal S1x2048x256 .f32) (w : Vec Ideal S256 .f32) (r : Fin 2048) (d : Fin 256) :
    k0_pay12 (F := Ideal) x1 w (ix2 r d) = x1 (ix3 0 r d) * w (ix1 d) := by
  unfold k0_pay12 k0_pay8
  show shapeCast S2048x256 x1 _ (ix2 r d) * broadcastTo S2048x256 (shapeCast S1x256 w _) _ (ix2 r d) = _
  rw [squeeze_apply, rowcast_apply]
theorem k0_pay13_apply (b : Vec Ideal S256 .f32) (d : Fin 256) :
    k0_pay13 (F := Ideal) b (ix2 0 d) = b (ix1 d) := by
  unfold k0_pay13
  exact shapeCast_a_1a_apply b _ 0 d

theorem k0_pay1_apply (a b : FVec Ideal S2048x256 .bf16) (acc : Vec Ideal S256x256 .f32) (d e : Fin 256) :
    k0_pay1 (F := Ideal) a b acc (ix2 d e) = acc (ix2 d e) + ∑ r : Fin 2048, a (ix2 r d) * b (ix2 r e) := by
  unfold k0_pay1
  show shapeCast S256x256 (addf acc (matmul dot_S2048x256_S2048x256_S256x256_0_0_1_1_n_n none a b (constant (F := Ideal) S256x256 .f32 0x00000000#32))) _ (ix2 d e) = _
  rw [shapeCast_self, addf_apply, tile_matmul]
theorem k0_pay2_apply (a : FVec Ideal S2048x256 .bf16) (kb : FVec Ideal S2048x256 .f32) (bias : FVec Ideal S1x256 .f32)
    (acc : Vec Ideal S256x256 .f32) (d e : Fin 256) :
    k0_pay2 (F := Ideal) a kb bias acc (ix2 d e) = acc (ix2 d e) + ∑ r : Fin 2048, a (ix2 r d) * (kb (ix2 r e) + bias (ix2 0 e)) := by
  unfold k0_pay2
  show shapeCast S256x256 (addf acc (matmul dot_S2048x256_S2048x256_S256x256_0_0_1_1_n_n none a
      (truncf .bf16 (addf kb (broadcastTo S2048x256 bias _)) _) (constant (F := Ideal) S256x256 .f32 0x00000000#32))) _ (ix2 d e) = _
  rw [shapeCast_self, addf_apply, tile_matmul]
  refine congrArg (acc (ix2 d e) + ·) (Finset.sum_congr rfl fun r _ => ?_)
  show a (ix2 r d) * (kb (ix2 r e) + broadcastTo S2048x256 bias _ (ix2 r e)) = _
  rw [broadcastTo_1b_ab_apply]
theorem k0_pay5_apply (d e : Fin 256) : k0_pay5 (F := Ideal) (ix2 d e) = 0 := by
  unfold k0_pay5
  show shapeCast S256x256 (broadcast S256x256 (Ideal.ofBits .f32 0x00000000#32)) _ (ix2 d e) = 0
  rw [shapeCast_self, broadcast_apply, Ideal.ofBits_zero_f32]
theorem k0_pay6_apply (d e : Fin 256) : k0_pay6 (F := Ideal) (ix2 d e) = 0 := k0_pay5_apply d e

theorem k0_pay3_apply (acc : Vec Ideal S256x256 .f32) (d e : Fin 256) :
    k0_pay3 (F := Ideal) acc (ix4 0 0 d e) = Cert.Spec.softmaxRow (fun e' => acc (ix2 d e') * Cert.Spec.scale) e := by
  unfold k0_pay3
  refine (cast11_apply _ _ d e).trans ?_
  exact smx_apply acc _ _ _ _ _ _ d e
theorem k0_pay4_apply (acc : Vec Ideal S256x256 .f32) (d e : Fin 256) :
    k0_pay4 (F := Ideal) acc (ix4 0 0 d e) = Cert.Spec.softmaxRow (fun e' => acc (ix2 d e') * Cert.Spec.scale) e := k0_pay3_apply acc d e

theorem sum_tiles (f : Fin 16384 → EReal) :
    ∑ n : Fin 16384, f n = ∑ j : Fin 8, ∑ r : Fin 2048, f ⟨j.val * 2048 + r.val, by omega⟩ := by
  symm
  rw [← Fintype.sum_prod_type' (f := fun (j : Fin 8) (r : Fin 2048) => f ⟨j.val * 2048 + r.val, by omega⟩)]
  refine Fintype.sum_equiv (finProdFinEquiv (m := 8) (n := 2048)) _ _ (fun p => ?_)
  exact congrArg f (Fin.ext (by
    show p.1.val * 2048 + p.2.val = p.2.val + 2048 * p.1.val
    omega))

end Cert.KernelIdeal.Val

end
-- ==== Proof.KI.R0Aux.lean ====
import proofs.«120010_j12481174962634_1_alg».proof.Proof.KI.R0Body
import proofs.«120010_j12481174962634_1_alg».proof.Proof.Gen.KernelIdeal.Points
import Idealize.ShloMosaic.Lib.Pipeline.Value

set_option maxRecDepth 16384

noncomputable section

namespace Cert.KernelIdeal.Val.R0

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

theorem idx_out10 : ∀ t : Fin cfg0.N,
    win0_10.index t (0 : Fin 4) = t.val / 32 ∧ win0_10.index t (1 : Fin 4) = t.val / 8 % 4 ∧ win0_10.index t (2 : Fin 4) = 0 ∧ win0_10.index t (3 : Fin 4) = 0 :=
  (by decide +kernel : ∀ t : Fin grid0.N, _)
theorem idx_out11 : ∀ t : Fin cfg0.N,
    win0_11.index t (0 : Fin 4) = t.val / 32 ∧ win0_11.index t (1 : Fin 4) = t.val / 8 % 4 ∧ win0_11.index t (2 : Fin 4) = 0 ∧ win0_11.index t (3 : Fin 4) = 0 :=
  (by decide +kernel : ∀ t : Fin grid0.N, _)

theorem mem_blk10 (t : Fin cfg0.N) (i : S2x4x256x256.Idx) :
    i ∈ ((cfg0.win 10).blk t).view.set ↔ ∀ a : Fin 4, win0_10.index t a * S1x1x256x256.size a ≤ (i a).val ∧ (i a).val < win0_10.index t a * S1x1x256x256.size a + S1x1x256x256.size a := by
  show i ∈ ((View.whole main_v0_0).slice (win0_10.rect t)).set ↔ _
  rw [View.set_slice_whole, Rect.mem_set_unit]
  exact Iff.rfl
theorem mem_blk11 (t : Fin cfg0.N) (i : S2x4x256x256.Idx) :
    i ∈ ((cfg0.win 11).blk t).view.set ↔ ∀ a : Fin 4, win0_11.index t a * S1x1x256x256.size a ≤ (i a).val ∧ (i a).val < win0_11.index t a * S1x1x256x256.size a + S1x1x256x256.size a := by
  show i ∈ ((View.whole main_v0_1).slice (win0_11.rect t)).set ↔ _
  rw [View.set_slice_whole, Rect.mem_set_unit]
  exact Iff.rfl

theorem cover10 (i : S2x4x256x256.Idx) : ∃ t : Fin cfg0.N, (cfg0.win 10).flush t = true ∧ i ∈ ((cfg0.win 10).blk t).view.set := by
  have hN : cfg0.N = 64 := N_0
  have h0 : (i 0).val < 2 := (i 0).isLt
  have h1 : (i 1).val < 4 := (i 1).isLt
  have h2 : (i 2).val < 256 := (i 2).isLt
  have h3 : (i 3).val < 256 := (i 3).isLt
  obtain ⟨t, ht⟩ : ∃ t : Fin cfg0.N, t.val = (i 0).val * 32 + (i 1).val * 8 + 7 := ⟨⟨_, by omega⟩, rfl⟩
  refine ⟨t, (flush0_10 t).mpr (by omega), ?_⟩
  obtain ⟨f0, f1, f2, f3⟩ := idx_out10 t
  rw [mem_blk10]
  intro a
  match a with
  | ⟨0, _⟩ =>
    show win0_10.index t (0 : Fin 4) * 1 ≤ (i 0).val ∧ (i 0).val < win0_10.index t (0 : Fin 4) * 1 + 1
    rw [f0]; omega
  | ⟨1, _⟩ =>
    show win0_10.index t (1 : Fin 4) * 1 ≤ (i 1).val ∧ (i 1).val < win0_10.index t (1 : Fin 4) * 1 + 1
    rw [f1]; omega
  | ⟨2, _⟩ =>
    show win0_10.index t (2 : Fin 4) * 256 ≤ (i 2).val ∧ (i 2).val < win0_10.index t (2 : Fin 4) * 256 + 256
    rw [f2]; omega
  | ⟨3, _⟩ =>
    show win0_10.index t (3 : Fin 4) * 256 ≤ (i 3).val ∧ (i 3).val < win0_10.index t (3 : Fin 4) * 256 + 256
    rw [f3]; omega

theorem cover11 (i : S2x4x256x256.Idx) : ∃ t : Fin cfg0.N, (cfg0.win 11).flush t = true ∧ i ∈ ((cfg0.win 11).blk t).view.set := by
  have hN : cfg0.N = 64 := N_0
  have h0 : (i 0).val < 2 := (i 0).isLt
  have h1 : (i 1).val < 4 := (i 1).isLt
  have h2 : (i 2).val < 256 := (i 2).isLt
  have h3 : (i 3).val < 256 := (i 3).isLt
  obtain ⟨t, ht⟩ : ∃ t : Fin cfg0.N, t.val = (i 0).val * 32 + (i 1).val * 8 + 7 := ⟨⟨_, by omega⟩, rfl⟩
  refine ⟨t, (flush0_11 t).mpr (by omega), ?_⟩
  obtain ⟨f0, f1, f2, f3⟩ := idx_out11 t
  rw [mem_blk11]
  intro a
  match a with
  | ⟨0, _⟩ =>
    show win0_11.index t (0 : Fin 4) * 1 ≤ (i 0).val ∧ (i 0).val < win0_11.index t (0 : Fin 4) * 1 + 1
    rw [f0]; omega
  | ⟨1, _⟩ =>
    show win0_11.index t (1 : Fin 4) * 1 ≤ (i 1).val ∧ (i 1).val < win0_11.index t (1 : Fin 4) * 1 + 1
    rw [f1]; omega
  | ⟨2, _⟩ =>
    show win0_11.index t (2 : Fin 4) * 256 ≤ (i 2).val ∧ (i 2).val < win0_11.index t (2 : Fin 4) * 256 + 256
    rw [f2]; omega
  | ⟨3, _⟩ =>
    show win0_11.index t (3 : Fin 4) * 256 ≤ (i 3).val ∧ (i 3).val < win0_11.index t (3 : Fin 4) * 256 + 256
    rw [f3]; omega

end Cert.KernelIdeal.Val.R0

end
-- ==== Proof.KI.R0Val.lean ====
import proofs.«120010_j12481174962634_1_alg».proof.Proof.KI.R0Body
import proofs.«120010_j12481174962634_1_alg».proof.Proof.KI.R0Pay
import proofs.«120010_j12481174962634_1_alg».proof.Proof.KI.R0Aux
import proofs.«120010_j12481174962634_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

namespace R0

variable (V : (c : Dev nD) → (b : Ref sig .tc) → Buf (Elt Ideal) ((c : Thread nD τ).loc b))

theorem idx_q : ∀ t : Fin cfg0.N, win0_0.index t (0 : Fin 3) = t.val / 32 ∧ win0_0.index t (1 : Fin 3) = t.val % 8
    ∧ win0_0.index t (2 : Fin 3) = t.val / 8 % 4 :=
  (by decide +kernel : ∀ t : Fin grid0.N, _)
theorem idx_k : ∀ t : Fin cfg0.N, win0_1.index t (0 : Fin 3) = t.val / 32 ∧ win0_1.index t (1 : Fin 3) = t.val % 8
    ∧ win0_1.index t (2 : Fin 3) = t.val / 8 % 4 :=
  (by decide +kernel : ∀ t : Fin grid0.N, _)
theorem idx_vec : ∀ t : Fin cfg0.N, win0_2.index t (0 : Fin 1) = t.val / 8 % 4 ∧ win0_3.index t (0 : Fin 1) = t.val / 8 % 4
    ∧ win0_4.index t (0 : Fin 1) = t.val / 8 % 4 ∧ win0_5.index t (0 : Fin 1) = t.val / 8 % 4
    ∧ win0_6.index t (0 : Fin 1) = t.val / 8 % 4 ∧ win0_7.index t (0 : Fin 1) = t.val / 8 % 4
    ∧ win0_8.index t (0 : Fin 1) = t.val / 8 % 4 ∧ win0_9.index t (0 : Fin 1) = t.val / 8 % 4 :=
  (by decide +kernel : ∀ t : Fin grid0.N, _)
theorem qblk_apply (c : Dev nD) (t : Fin cfg0.N) (x : S1x2048x256.Idx) (k : S2x16384x1024.Idx)
    (hk0 : (k 0).val = t.val / 32 + (x 0).val) (hk1 : (k 1).val = t.val % 8 * 2048 + (x 1).val)
    (hk2 : (k 2).val = t.val / 8 % 4 * 256 + (x 2).val) :
    (iblk0 V c 0 t : Vec Ideal S1x2048x256 .f32) x = (V c main_arg0 : Vec Ideal S2x16384x1024 .f32) k := by
  obtain ⟨e0, e1, e2⟩ := idx_q t
  unfold iblk0
  rw [View.read_apply]
  show V c main_arg0 _ = V c main_arg0 _
  congr 1
  funext a
  apply Fin.ext
  match a with
  | ⟨0, _⟩ => show win0_0.index t (0 : Fin 3) * 1 + 1 * (x 0).val = (k 0).val; rw [e0, hk0]; omega
  | ⟨1, _⟩ => show win0_0.index t (1 : Fin 3) * 2048 + 1 * (x 1).val = (k 1).val; rw [e1, hk1]; omega
  | ⟨2, _⟩ => show win0_0.index t (2 : Fin 3) * 256 + 1 * (x 2).val = (k 2).val; rw [e2, hk2]; omega

def pb (n : ℕ) : Fin 2 := ⟨n / 32 % 2, by omega⟩
def ph (n : ℕ) : Fin 4 := ⟨n / 8 % 4, by omega⟩
def pj (n : ℕ) : Fin 8 := ⟨n % 8, by omega⟩
def pos (j : Fin 8) (r : Fin 2048) : Fin 16384 := ⟨j.val * 2048 + r.val, by omega⟩

theorem kblk_apply (c : Dev nD) (t : Fin cfg0.N) (x : S1x2048x256.Idx) (k : S2x16384x1024.Idx)
    (hk0 : (k 0).val = t.val / 32 + (x 0).val) (hk1 : (k 1).val = t.val % 8 * 2048 + (x 1).val)
    (hk2 : (k 2).val = t.val / 8 % 4 * 256 + (x 2).val) :
    (iblk0 V c 1 t : Vec Ideal S1x2048x256 .f32) x = (V c main_arg1 : Vec Ideal S2x16384x1024 .f32) k := by
  obtain ⟨e0, e1, e2⟩ := idx_k t
  unfold iblk0
  rw [View.read_apply]
  show V c main_arg1 _ = V c main_arg1 _
  congr 1
  funext a
  apply Fin.ext
  match a with
  | ⟨0, _⟩ => show win0_1.index t (0 : Fin 3) * 1 + 1 * (x 0).val = (k 0).val; rw [e0, hk0]; omega
  | ⟨1, _⟩ => show win0_1.index t (1 : Fin 3) * 2048 + 1 * (x 1).val = (k 1).val; rw [e1, hk1]; omega
  | ⟨2, _⟩ => show win0_1.index t (2 : Fin 3) * 256 + 1 * (x 2).val = (k 2).val; rw [e2, hk2]; omega

theorem qblk_at (c : Dev nD) (t : Fin cfg0.N) (r : Fin 2048) (d : Fin 256) :
    (iblk0 V c 0 t : Vec Ideal S1x2048x256 .f32) (ix3 (0 : Fin 1) r d)
      = (V c main_arg0 : Vec Ideal S2x16384x1024 .f32) (ix3 (pb t.val) (pos (pj t.val) r) (Cert.Spec.ch (ph t.val) d)) := by
  have hN : cfg0.N = 64 := N_0
  have ht := t.isLt
  refine qblk_apply V c t _ _ ?_ ?_ ?_
  · show t.val / 32 % 2 = t.val / 32 + 0; omega
  · show t.val % 8 * 2048 + r.val = t.val % 8 * 2048 + r.val; rfl
  · show t.val / 8 % 4 * 256 + d.val = t.val / 8 % 4 * 256 + d.val; rfl

theorem kblk_at (c : Dev nD) (t : Fin cfg0.N) (r : Fin 2048) (d : Fin 256) :
    (iblk0 V c 1 t : Vec Ideal S1x2048x256 .f32) (ix3 (0 : Fin 1) r d)
      = (V c main_arg1 : Vec Ideal S2x16384x1024 .f32) (ix3 (pb t.val) (pos (pj t.val) r) (Cert.Spec.ch (ph t.val) d)) := by
  have hN : cfg0.N = 64 := N_0
  have ht := t.isLt
  refine kblk_apply V c t _ _ ?_ ?_ ?_
  · show t.val / 32 % 2 = t.val / 32 + 0; omega
  · show t.val % 8 * 2048 + r.val = t.val % 8 * 2048 + r.val; rfl
  · show t.val / 8 % 4 * 256 + d.val = t.val / 8 % 4 * 256 + d.val; rfl

theorem vblk2_at (c : Dev nD) (t : Fin cfg0.N) (d : Fin 256) :
    (iblk0 V c 2 t : Vec Ideal S256 .f32) (ix1 d) = (V c main_arg3 : Vec Ideal S1024 .f32) (ix1 (Cert.Spec.ch (ph t.val) d)) := by
  obtain ⟨e2, e3, e4, e5, e6, e7, e8, e9⟩ := idx_vec t
  unfold iblk0
  rw [View.read_apply]
  show V c main_arg3 _ = V c main_arg3 _
  congr 1
  funext a
  apply Fin.ext
  match a with
  | ⟨0, _⟩ => show win0_2.index t (0 : Fin 1) * 256 + 1 * d.val = t.val / 8 % 4 * 256 + d.val; rw [e2]; omega

theorem vblk3_at (c : Dev nD) (t : Fin cfg0.N) (d : Fin 256) :
    (iblk0 V c 3 t : Vec Ideal S256 .f32) (ix1 d) = (V c main_arg4 : Vec Ideal S1024 .f32) (ix1 (Cert.Spec.ch (ph t.val) d)) := by
  obtain ⟨e2, e3, e4, e5, e6, e7, e8, e9⟩ := idx_vec t
  unfold iblk0
  rw [View.read_apply]
  show V c main_arg4 _ = V c main_arg4 _
  congr 1
  funext a
  apply Fin.ext
  match a with
  | ⟨0, _⟩ => show win0_3.index t (0 : Fin 1) * 256 + 1 * d.val = t.val / 8 % 4 * 256 + d.val; rw [e3]; omega

theorem vblk4_at (c : Dev nD) (t : Fin cfg0.N) (d : Fin 256) :
    (iblk0 V c 4 t : Vec Ideal S256 .f32) (ix1 d) = (V c main_arg5 : Vec Ideal S1024 .f32) (ix1 (Cert.Spec.ch (ph t.val) d)) := by
  obtain ⟨e2, e3, e4, e5, e6, e7, e8, e9⟩ := idx_vec t
  unfold iblk0
  rw [View.read_apply]
  show V c main_arg5 _ = V c main_arg5 _
  congr 1
  funext a
  apply Fin.ext
  match a with
  | ⟨0, _⟩ => show win0_4.index t (0 : Fin 1) * 256 + 1 * d.val = t.val / 8 % 4 * 256 + d.val; rw [e4]; omega

theorem vblk5_at (c : Dev nD) (t : Fin cfg0.N) (d : Fin 256) :
    (iblk0 V c 5 t : Vec Ideal S256 .f32) (ix1 d) = (V c main_arg6 : Vec Ideal S1024 .f32) (ix1 (Cert.Spec.ch (ph t.val) d)) := by
  obtain ⟨e2, e3, e4, e5, e6, e7, e8, e9⟩ := idx_vec t
  unfold iblk0
  rw [View.read_apply]
  show V c main_arg6 _ = V c main_arg6 _
  congr 1
  funext a
  apply Fin.ext
  match a with
  | ⟨0, _⟩ => show win0_5.index t (0 : Fin 1) * 256 + 1 * d.val = t.val / 8 % 4 * 256 + d.val; rw [e5]; omega

theorem vblk6_at (c : Dev nD) (t : Fin cfg0.N) (d : Fin 256) :
    (iblk0 V c 6 t : Vec Ideal S256 .f32) (ix1 d) = (V c main_arg9 : Vec Ideal S1024 .f32) (ix1 (Cert.Spec.ch (ph t.val) d)) := by
  obtain ⟨e2, e3, e4, e5, e6, e7, e8, e9⟩ := idx_vec t
  unfold iblk0
  rw [View.read_apply]
  show V c main_arg9 _ = V c main_arg9 _
  congr 1
  funext a
  apply Fin.ext
  match a with
  | ⟨0, _⟩ => show win0_6.index t (0 : Fin 1) * 256 + 1 * d.val = t.val / 8 % 4 * 256 + d.val; rw [e6]; omega

theorem vblk7_at (c : Dev nD) (t : Fin cfg0.N) (d : Fin 256) :
    (iblk0 V c 7 t : Vec Ideal S256 .f32) (ix1 d) = (V c main_arg10 : Vec Ideal S1024 .f32) (ix1 (Cert.Spec.ch (ph t.val) d)) := by
  obtain ⟨e2, e3, e4, e5, e6, e7, e8, e9⟩ := idx_vec t
  unfold iblk0
  rw [View.read_apply]
  show V c main_arg10 _ = V c main_arg10 _
  congr 1
  funext a
  apply Fin.ext
  match a with
  | ⟨0, _⟩ => show win0_7.index t (0 : Fin 1) * 256 + 1 * d.val = t.val / 8 % 4 * 256 + d.val; rw [e7]; omega

theorem vblk8_at (c : Dev nD) (t : Fin cfg0.N) (d : Fin 256) :
    (iblk0 V c 8 t : Vec Ideal S256 .f32) (ix1 d) = (V c main_arg11 : Vec Ideal S1024 .f32) (ix1 (Cert.Spec.ch (ph t.val) d)) := by
  obtain ⟨e2, e3, e4, e5, e6, e7, e8, e9⟩ := idx_vec t
  unfold iblk0
  rw [View.read_apply]
  show V c main_arg11 _ = V c main_arg11 _
  congr 1
  funext a
  apply Fin.ext
  match a with
  | ⟨0, _⟩ => show win0_8.index t (0 : Fin 1) * 256 + 1 * d.val = t.val / 8 % 4 * 256 + d.val; rw [e8]; omega

theorem vblk9_at (c : Dev nD) (t : Fin cfg0.N) (d : Fin 256) :
    (iblk0 V c 9 t : Vec Ideal S256 .f32) (ix1 d) = (V c main_arg12 : Vec Ideal S1024 .f32) (ix1 (Cert.Spec.ch (ph t.val) d)) := by
  obtain ⟨e2, e3, e4, e5, e6, e7, e8, e9⟩ := idx_vec t
  unfold iblk0
  rw [View.read_apply]
  show V c main_arg12 _ = V c main_arg12 _
  congr 1
  funext a
  apply Fin.ext
  match a with
  | ⟨0, _⟩ => show win0_9.index t (0 : Fin 1) * 256 + 1 * d.val = t.val / 8 % 4 * 256 + d.val; rw [e9]; omega

abbrev qb (c : Dev nD) (t : Fin cfg0.N) : Vec Ideal S1x2048x256 .f32 := iblk0 V c 0 t
abbrev kb (c : Dev nD) (t : Fin cfg0.N) : Vec Ideal S1x2048x256 .f32 := iblk0 V c 1 t
abbrev vb2 (c : Dev nD) (t : Fin cfg0.N) : Vec Ideal S256 .f32 := iblk0 V c 2 t
abbrev vb3 (c : Dev nD) (t : Fin cfg0.N) : Vec Ideal S256 .f32 := iblk0 V c 3 t
abbrev vb4 (c : Dev nD) (t : Fin cfg0.N) : Vec Ideal S256 .f32 := iblk0 V c 4 t
abbrev vb5 (c : Dev nD) (t : Fin cfg0.N) : Vec Ideal S256 .f32 := iblk0 V c 5 t
abbrev vb6 (c : Dev nD) (t : Fin cfg0.N) : Vec Ideal S256 .f32 := iblk0 V c 6 t
abbrev vb7 (c : Dev nD) (t : Fin cfg0.N) : Vec Ideal S256 .f32 := iblk0 V c 7 t
abbrev vb8 (c : Dev nD) (t : Fin cfg0.N) : Vec Ideal S256 .f32 := iblk0 V c 8 t
abbrev vb9 (c : Dev nD) (t : Fin cfg0.N) : Vec Ideal S256 .f32 := iblk0 V c 9 t
abbrev acc0 (c : Dev nD) (n : ℕ) (hn : n < cfg0.N) : Vec Ideal S256x256 .f32 := (accAt0 V c n hn).1
abbrev acc1 (c : Dev nD) (n : ℕ) (hn : n < cfg0.N) : Vec Ideal S256x256 .f32 := (accAt0 V c n hn).2

theorem acc0_first (c : Dev nD) (t : Fin cfg0.N) (h0 : t.val % 8 = 0) :
    acc0 V c t.val t.isLt = k0_pay1 (k0_pay9 (qb V c t) (vb2 V c t) (vb3 V c t)) (k0_pay10 (kb V c t) (vb4 V c t) (vb5 V c t)) (k0_pay5 (F := Ideal)) :=
  congrArg Prod.fst (accAt0_first V c t h0)
theorem acc1_first (c : Dev nD) (t : Fin cfg0.N) (h0 : t.val % 8 = 0) :
    acc1 V c t.val t.isLt = k0_pay2 (k0_pay11 (qb V c t) (vb6 V c t) (vb7 V c t)) (k0_pay12 (kb V c t) (vb8 V c t)) (k0_pay13 (vb9 V c t)) (k0_pay6 (F := Ideal)) :=
  congrArg Prod.snd (accAt0_first V c t h0)
theorem acc0_next (c : Dev nD) (t : Fin cfg0.N) (h0 : ¬t.val % 8 = 0) :
    acc0 V c t.val t.isLt = k0_pay1 (k0_pay9 (qb V c t) (vb2 V c t) (vb3 V c t)) (k0_pay10 (kb V c t) (vb4 V c t) (vb5 V c t)) (acc0 V c (t.val - 1) (Nat.lt_of_le_of_lt (Nat.sub_le _ _) t.isLt)) :=
  congrArg Prod.fst (accAt0_next V c t h0)
theorem acc1_next (c : Dev nD) (t : Fin cfg0.N) (h0 : ¬t.val % 8 = 0) :
    acc1 V c t.val t.isLt = k0_pay2 (k0_pay11 (qb V c t) (vb6 V c t) (vb7 V c t)) (k0_pay12 (kb V c t) (vb8 V c t)) (k0_pay13 (vb9 V c t)) (acc1 V c (t.val - 1) (Nat.lt_of_le_of_lt (Nat.sub_le _ _) t.isLt)) :=
  congrArg Prod.snd (accAt0_next V c t h0)

/-- One tile's part of a score: the two mapped inputs contracted over the tile's 2048 positions. -/
def tileSum (q k : FVec Ideal Cert.Spec.SQ .f32) (wq bq wk bk : FVec Ideal Cert.Spec.SW .f32) (bi : Fin 2) (h : Fin 4) (j : Fin 8)
    (d e : Fin 256) : EReal :=
  ∑ r : Fin 2048, Cert.Spec.aff q wq bq bi (pos j r) (Cert.Spec.ch h d) * Cert.Spec.aff k wk bk bi (pos j r) (Cert.Spec.ch h e)

theorem score_eq_tiles (q k : FVec Ideal Cert.Spec.SQ .f32) (wq bq wk bk : FVec Ideal Cert.Spec.SW .f32) (bi : Fin 2) (h : Fin 4)
    (d e : Fin 256) : Cert.Spec.score q k wq bq wk bk bi h d e = ∑ j : Fin 8, tileSum q k wq bq wk bk bi h j d e := by
  unfold Cert.Spec.score tileSum
  exact sum_tiles _

theorem qaffG_at (c : Dev nD) (t : Fin cfg0.N) (r : Fin 2048) (d : Fin 256) :
    k0_pay9 (F := Ideal) (qb V c t) (vb2 V c t) (vb3 V c t) (ix2 r d)
      = Cert.Spec.aff (V c main_arg0) (V c main_arg3) (V c main_arg4) (pb t.val) (pos (pj t.val) r) (Cert.Spec.ch (ph t.val) d) := by
  refine (k0_pay9_apply (qb V c t) (vb2 V c t) (vb3 V c t) r d).trans ?_
  unfold Cert.Spec.aff
  exact congrArg₂ (· + ·) (congrArg₂ (· * ·) (qblk_at V c t r d) (vblk2_at V c t d)) (vblk3_at V c t d)

theorem kaffG_at (c : Dev nD) (t : Fin cfg0.N) (r : Fin 2048) (e : Fin 256) :
    k0_pay10 (F := Ideal) (kb V c t) (vb4 V c t) (vb5 V c t) (ix2 r e)
      = Cert.Spec.aff (V c main_arg1) (V c main_arg5) (V c main_arg6) (pb t.val) (pos (pj t.val) r) (Cert.Spec.ch (ph t.val) e) := by
  refine (k0_pay10_apply (kb V c t) (vb4 V c t) (vb5 V c t) r e).trans ?_
  unfold Cert.Spec.aff
  exact congrArg₂ (· + ·) (congrArg₂ (· * ·) (kblk_at V c t r e) (vblk4_at V c t e)) (vblk5_at V c t e)

theorem qaffL_at (c : Dev nD) (t : Fin cfg0.N) (r : Fin 2048) (d : Fin 256) :
    k0_pay11 (F := Ideal) (qb V c t) (vb6 V c t) (vb7 V c t) (ix2 r d)
      = Cert.Spec.aff (V c main_arg0) (V c main_arg9) (V c main_arg10) (pb t.val) (pos (pj t.val) r) (Cert.Spec.ch (ph t.val) d) := by
  refine (k0_pay11_apply (qb V c t) (vb6 V c t) (vb7 V c t) r d).trans ?_
  unfold Cert.Spec.aff
  exact congrArg₂ (· + ·) (congrArg₂ (· * ·) (qblk_at V c t r d) (vblk6_at V c t d)) (vblk7_at V c t d)

theorem kaffL_at (c : Dev nD) (t : Fin cfg0.N) (r : Fin 2048) (e : Fin 256) :
    k0_pay12 (F := Ideal) (kb V c t) (vb8 V c t) (ix2 r e) + k0_pay13 (F := Ideal) (vb9 V c t) (ix2 0 e)
      = Cert.Spec.aff (V c main_arg1) (V c main_arg11) (V c main_arg12) (pb t.val) (pos (pj t.val) r) (Cert.Spec.ch (ph t.val) e) := by
  refine (congrArg₂ (· + ·) (k0_pay12_apply (kb V c t) (vb8 V c t) r e) (k0_pay13_apply (vb9 V c t) e)).trans ?_
  unfold Cert.Spec.aff
  exact congrArg₂ (· + ·) (congrArg₂ (· * ·) (kblk_at V c t r e) (vblk8_at V c t e)) (vblk9_at V c t e)

theorem stepG_at (c : Dev nD) (t : Fin cfg0.N) (acc : Vec Ideal S256x256 .f32) (d e : Fin 256) :
    k0_pay1 (F := Ideal) (k0_pay9 (qb V c t) (vb2 V c t) (vb3 V c t)) (k0_pay10 (kb V c t) (vb4 V c t) (vb5 V c t)) acc (ix2 d e)
      = acc (ix2 d e) + tileSum (V c main_arg0) (V c main_arg1) (V c main_arg3) (V c main_arg4) (V c main_arg5) (V c main_arg6)
          (pb t.val) (ph t.val) (pj t.val) d e := by
  refine (k0_pay1_apply _ _ acc d e).trans ?_
  unfold tileSum
  exact congrArg (acc (ix2 d e) + ·) (Finset.sum_congr rfl fun r _ => congrArg₂ (· * ·) (qaffG_at V c t r d) (kaffG_at V c t r e))

theorem stepL_at (c : Dev nD) (t : Fin cfg0.N) (acc : Vec Ideal S256x256 .f32) (d e : Fin 256) :
    k0_pay2 (F := Ideal) (k0_pay11 (qb V c t) (vb6 V c t) (vb7 V c t)) (k0_pay12 (kb V c t) (vb8 V c t)) (k0_pay13 (vb9 V c t)) acc (ix2 d e)
      = acc (ix2 d e) + tileSum (V c main_arg0) (V c main_arg1) (V c main_arg9) (V c main_arg10) (V c main_arg11) (V c main_arg12)
          (pb t.val) (ph t.val) (pj t.val) d e := by
  refine (k0_pay2_apply _ _ _ acc d e).trans ?_
  unfold tileSum
  exact congrArg (acc (ix2 d e) + ·) (Finset.sum_congr rfl fun r _ => congrArg₂ (· * ·) (qaffL_at V c t r d) (kaffL_at V c t r e))

/-- A quantity that gains one term a point, from zero at every first tile, is after point n the sum of its pair's terms up to n's. -/
theorem acc_sum (T : ℕ → EReal) (f : (n : ℕ) → n < cfg0.N → EReal)
    (hfirst : ∀ (n : ℕ) (hn : n < cfg0.N), n % 8 = 0 → f n hn = 0 + T n)
    (hnext : ∀ (n : ℕ) (hn : n < cfg0.N), ¬n % 8 = 0 → f n hn = f (n - 1) (Nat.lt_of_le_of_lt (Nat.sub_le _ _) hn) + T n) :
    ∀ (n : ℕ) (hn : n < cfg0.N), f n hn = ∑ s ∈ Finset.range (n % 8 + 1), T (8 * (n / 8) + s) := by
  intro n
  induction n with
  | zero =>
    intro hn
    rw [hfirst 0 hn rfl]
    simp
  | succ n ih =>
    intro hn
    by_cases h0 : (n + 1) % 8 = 0
    · rw [hfirst _ hn h0, h0, zero_add, Finset.sum_range_one]
      exact congrArg T (by omega)
    · rw [hnext _ hn h0]
      show f n _ + T (n + 1) = _
      rw [ih]
      have e1 : (n + 1) % 8 = n % 8 + 1 := by omega
      have e2 : (n + 1) / 8 = n / 8 := by omega
      rw [e1, e2, Finset.sum_range_succ _ (n % 8 + 1)]
      exact congrArg (_ + T ·) (by omega)

theorem acc0_eq (c : Dev nD) (d e : Fin 256) (n : ℕ) (hn : n < cfg0.N) :
    acc0 V c n hn (ix2 d e) = ∑ s ∈ Finset.range (n % 8 + 1),
      tileSum (V c main_arg0) (V c main_arg1) (V c main_arg3) (V c main_arg4) (V c main_arg5) (V c main_arg6)
        (pb (8 * (n / 8) + s)) (ph (8 * (n / 8) + s)) (pj (8 * (n / 8) + s)) d e :=
  acc_sum (fun n => tileSum (V c main_arg0) (V c main_arg1) (V c main_arg3) (V c main_arg4) (V c main_arg5) (V c main_arg6) (pb n) (ph n) (pj n) d e)
    (fun n hn => acc0 V c n hn (ix2 d e))
    (fun n hn h0 => (congrFun (acc0_first V c ⟨n, hn⟩ h0) (ix2 d e)).trans
      ((stepG_at V c ⟨n, hn⟩ _ d e).trans (congrArg (· + _) (k0_pay5_apply d e))))
    (fun n hn h0 => (congrFun (acc0_next V c ⟨n, hn⟩ h0) (ix2 d e)).trans (stepG_at V c ⟨n, hn⟩ _ d e))
    n hn

theorem acc1_eq (c : Dev nD) (d e : Fin 256) (n : ℕ) (hn : n < cfg0.N) :
    acc1 V c n hn (ix2 d e) = ∑ s ∈ Finset.range (n % 8 + 1),
      tileSum (V c main_arg0) (V c main_arg1) (V c main_arg9) (V c main_arg10) (V c main_arg11) (V c main_arg12)
        (pb (8 * (n / 8) + s)) (ph (8 * (n / 8) + s)) (pj (8 * (n / 8) + s)) d e :=
  acc_sum (fun n => tileSum (V c main_arg0) (V c main_arg1) (V c main_arg9) (V c main_arg10) (V c main_arg11) (V c main_arg12) (pb n) (ph n) (pj n) d e)
    (fun n hn => acc1 V c n hn (ix2 d e))
    (fun n hn h0 => (congrFun (acc1_first V c ⟨n, hn⟩ h0) (ix2 d e)).trans
      ((stepL_at V c ⟨n, hn⟩ _ d e).trans (congrArg (· + _) (k0_pay6_apply d e))))
    (fun n hn h0 => (congrFun (acc1_next V c ⟨n, hn⟩ h0) (ix2 d e)).trans (stepL_at V c ⟨n, hn⟩ _ d e))
    n hn

/-- A pair's eight tiles, summed in point order, are the whole sum over the 16384 positions. -/
theorem tiles_of_pair (q k : FVec Ideal Cert.Spec.SQ .f32) (wq bq wk bk : FVec Ideal Cert.Spec.SW .f32) (n : ℕ) (d e : Fin 256) :
    ∑ s ∈ Finset.range 8, tileSum q k wq bq wk bk (pb (8 * (n / 8) + s)) (ph (8 * (n / 8) + s)) (pj (8 * (n / 8) + s)) d e
      = Cert.Spec.score q k wq bq wk bk (pb n) (ph n) d e := by
  rw [score_eq_tiles, Finset.sum_range]
  refine Finset.sum_congr rfl fun j _ => ?_
  have hj := j.isLt
  have e1 : pb (8 * (n / 8) + j.val) = pb n := Fin.ext (by show (8 * (n / 8) + j.val) / 32 % 2 = n / 32 % 2; omega)
  have e2 : ph (8 * (n / 8) + j.val) = ph n := Fin.ext (by show (8 * (n / 8) + j.val) / 8 % 4 = n / 8 % 4; omega)
  have e3 : pj (8 * (n / 8) + j.val) = j := Fin.ext (by show (8 * (n / 8) + j.val) % 8 = j.val; omega)
  rw [e1, e2, e3]

theorem acc0_last (c : Dev nD) (t : Fin cfg0.N) (h7 : t.val % 8 = 7) (d e : Fin 256) :
    acc0 V c t.val t.isLt (ix2 d e)
      = Cert.Spec.score (V c main_arg0) (V c main_arg1) (V c main_arg3) (V c main_arg4) (V c main_arg5) (V c main_arg6) (pb t.val) (ph t.val) d e := by
  rw [acc0_eq V c d e t.val t.isLt, h7]
  exact tiles_of_pair _ _ _ _ _ _ t.val d e

theorem acc1_last (c : Dev nD) (t : Fin cfg0.N) (h7 : t.val % 8 = 7) (d e : Fin 256) :
    acc1 V c t.val t.isLt (ix2 d e)
      = Cert.Spec.score (V c main_arg0) (V c main_arg1) (V c main_arg9) (V c main_arg10) (V c main_arg11) (V c main_arg12) (pb t.val) (ph t.val) d e := by
  rw [acc1_eq V c d e t.val t.isLt, h7]
  exact tiles_of_pair _ _ _ _ _ _ t.val d e

theorem attn_at (q k : FVec Ideal Cert.Spec.SQ .f32) (wq bq wk bk : FVec Ideal Cert.Spec.SW .f32) (bi : Fin 2) (h : Fin 4) (d e : Fin 256) :
    Cert.Spec.attn q k wq bq wk bk (ix4 bi h d e)
      = Cert.Spec.softmaxRow (fun e' => Cert.Spec.score q k wq bq wk bk bi h d e' * Cert.Spec.scale) e := rfl

/-- A last tile's block of an output is the pair's block of the attention matrix: the row softmax of the scaled scores. -/
theorem flushed10_eq (c : Dev nD) (t : Fin cfg0.N) (hf : (cfg0.win 10).flush t = true) :
    (dat0 (F := Ideal) V c).flushed 10 t = ((cfg0.win 10).blk t).view.read (Elt Ideal)
      (Cert.Spec.attn (V c main_arg0) (V c main_arg1) (V c main_arg3) (V c main_arg4) (V c main_arg5) (V c main_arg6)) := by
  have hN : cfg0.N = 64 := N_0
  have ht := t.isLt
  have h7 : t.val % 8 = 7 := (flush0_10 t).mp hf
  have h0 : ¬t.val % 8 = 0 := by omega
  obtain ⟨e0, e1, e2, e3⟩ := idx_out10 t
  show (cfg0.win 10).cut (grid0.coords t) (k0_pay3 (acc0 V c t.val t.isLt)) = _
  funext y
  rw [View.read_apply, cast_eq]
  obtain ⟨u0, u1, d, e, rfl⟩ : ∃ (u0 u1 : Fin 1) (d e : Fin 256), y = ix4 u0 u1 d e := ⟨y 0, y 1, y 2, y 3, eq_ix4 y⟩
  have hx : win0_10.xinj (grid0.coords t) (ix4 u0 u1 d e) = (ix4 (0 : Fin 1) (0 : Fin 1) d e : S1x1x256x256.Idx) :=
    funext fun a => Fin.ext (by
      match a with
      | ⟨0, _⟩ => show u0.val = 0; omega
      | ⟨1, _⟩ => show u1.val = 0; omega
      | ⟨2, _⟩ => rfl
      | ⟨3, _⟩ => rfl)
  have hemb : ((cfg0.win 10).blk t).view.emb (ix4 u0 u1 d e) = (ix4 (pb t.val) (ph t.val) d e : S2x4x256x256.Idx) :=
    funext fun a => Fin.ext (by
      match a with
      | ⟨0, _⟩ => show win0_10.index t (0 : Fin 4) * 1 + 1 * u0.val = t.val / 32 % 2; rw [e0]; omega
      | ⟨1, _⟩ => show win0_10.index t (1 : Fin 4) * 1 + 1 * u1.val = t.val / 8 % 4; rw [e1]; omega
      | ⟨2, _⟩ => show win0_10.index t (2 : Fin 4) * 256 + 1 * d.val = d.val; rw [e2]; omega
      | ⟨3, _⟩ => show win0_10.index t (3 : Fin 4) * 256 + 1 * e.val = e.val; rw [e3]; omega)
  show k0_pay3 (F := Ideal) (acc0 V c t.val t.isLt) (win0_10.xinj (grid0.coords t) (ix4 u0 u1 d e))
    = Cert.Spec.attn (V c main_arg0) (V c main_arg1) (V c main_arg3) (V c main_arg4) (V c main_arg5) (V c main_arg6)
        (((cfg0.win 10).blk t).view.emb (ix4 u0 u1 d e))
  rw [hx, hemb, k0_pay3_apply, attn_at]
  exact congrArg (Cert.Spec.softmaxRow · e) (funext fun e' => congrArg (· * Cert.Spec.scale) (acc0_last V c t h7 d e'))
theorem flushed11_eq (c : Dev nD) (t : Fin cfg0.N) (hf : (cfg0.win 11).flush t = true) :
    (dat0 (F := Ideal) V c).flushed 11 t = ((cfg0.win 11).blk t).view.read (Elt Ideal)
      (Cert.Spec.attn (V c main_arg0) (V c main_arg1) (V c main_arg9) (V c main_arg10) (V c main_arg11) (V c main_arg12)) := by
  have hN : cfg0.N = 64 := N_0
  have ht := t.isLt
  have h7 : t.val % 8 = 7 := (flush0_11 t).mp hf
  have h0 : ¬t.val % 8 = 0 := by omega
  obtain ⟨e0, e1, e2, e3⟩ := idx_out11 t
  show (cfg0.win 11).cut (grid0.coords t) (k0_pay4 (acc1 V c t.val t.isLt)) = _
  funext y
  rw [View.read_apply, cast_eq]
  obtain ⟨u0, u1, d, e, rfl⟩ : ∃ (u0 u1 : Fin 1) (d e : Fin 256), y = ix4 u0 u1 d e := ⟨y 0, y 1, y 2, y 3, eq_ix4 y⟩
  have hx : win0_11.xinj (grid0.coords t) (ix4 u0 u1 d e) = (ix4 (0 : Fin 1) (0 : Fin 1) d e : S1x1x256x256.Idx) :=
    funext fun a => Fin.ext (by
      match a with
      | ⟨0, _⟩ => show u0.val = 0; omega
      | ⟨1, _⟩ => show u1.val = 0; omega
      | ⟨2, _⟩ => rfl
      | ⟨3, _⟩ => rfl)
  have hemb : ((cfg0.win 11).blk t).view.emb (ix4 u0 u1 d e) = (ix4 (pb t.val) (ph t.val) d e : S2x4x256x256.Idx) :=
    funext fun a => Fin.ext (by
      match a with
      | ⟨0, _⟩ => show win0_11.index t (0 : Fin 4) * 1 + 1 * u0.val = t.val / 32 % 2; rw [e0]; omega
      | ⟨1, _⟩ => show win0_11.index t (1 : Fin 4) * 1 + 1 * u1.val = t.val / 8 % 4; rw [e1]; omega
      | ⟨2, _⟩ => show win0_11.index t (2 : Fin 4) * 256 + 1 * d.val = d.val; rw [e2]; omega
      | ⟨3, _⟩ => show win0_11.index t (3 : Fin 4) * 256 + 1 * e.val = e.val; rw [e3]; omega)
  show k0_pay4 (F := Ideal) (acc1 V c t.val t.isLt) (win0_11.xinj (grid0.coords t) (ix4 u0 u1 d e))
    = Cert.Spec.attn (V c main_arg0) (V c main_arg1) (V c main_arg9) (V c main_arg10) (V c main_arg11) (V c main_arg12)
        (((cfg0.win 11).blk t).view.emb (ix4 u0 u1 d e))
  rw [hx, hemb, k0_pay4_apply, attn_at]
  exact congrArg (Cert.Spec.softmaxRow · e) (funext fun e' => congrArg (· * Cert.Spec.scale) (acc1_last V c t h7 d e'))

end R0

theorem attnG_eq (V : (c : Dev nD) → (b : Ref sig .tc) → Buf (Elt Ideal) ((c : Thread nD τ).loc b)) (c : Dev nD) :
    (dat0 (F := Ideal) V c).arrAt 10 cfg0.N
      = Cert.Spec.attn (V c main_arg0) (V c main_arg1) (V c main_arg3) (V c main_arg4) (V c main_arg5) (V c main_arg6) :=
  (dat0 (F := Ideal) V c).arrAt_eq_of_cover 10 _ (fun t hf => R0.flushed10_eq V c t hf) R0.cover10

theorem attnL_eq (V : (c : Dev nD) → (b : Ref sig .tc) → Buf (Elt Ideal) ((c : Thread nD τ).loc b)) (c : Dev nD) :
    (dat0 (F := Ideal) V c).arrAt 11 cfg0.N
      = Cert.Spec.attn (V c main_arg0) (V c main_arg1) (V c main_arg9) (V c main_arg10) (V c main_arg11) (V c main_arg12) :=
  (dat0 (F := Ideal) V c).arrAt_eq_of_cover 11 _ (fun t hf => R0.flushed11_eq V c t hf) R0.cover11

end Cert.KernelIdeal.Val

end
-- ==== Proof.KI.R1Val.lean ====
import proofs.«120010_j12481174962634_1_alg».proof.Proof.KI.R1Body
import proofs.«120010_j12481174962634_1_alg».proof.Proof.Spec
import Idealize.ShloMosaic.Lib.ValueLayout
import Idealize.ShloMosaic.PureOps.Ideal.Laws

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec

namespace R1

/-- Both operands are contracted along their second axis: entry (r, d) of the product is the sum over e of L[r, e] * R[d, e]. -/
theorem mm_apply {φ₁ φ₂ : FTy} (L : FVec Ideal S2048x256 φ₁) (R : FVec Ideal S256x256 φ₂) (r : Fin 2048) (d : Fin 256) :
    matmul dot_S2048x256_S256x256_S2048x256_1_1_0_0_n_n none L R (constant (F := Ideal) S2048x256 .f32 0x00000000#32) (ix2 r d)
      = ∑ e : Fin 256, L (ix2 r e) * R (ix2 d e) := by
  simp only [matmul]
  rw [Ideal.matmul_constant_zero_apply, ← Equiv.sum_comp (ValueIdx.contrEquiv1 dot_S2048x256_S256x256_S2048x256_1_1_0_0_n_n 256 rfl rfl).symm]
  refine Finset.sum_congr rfl fun k _ => ?_
  have hk := ValueIdx.contrEquiv1_symm_val dot_S2048x256_S256x256_S2048x256_1_1_0_0_n_n 256 rfl rfl k
  congr 2 <;> refine funext fun a => Fin.ext ?_
  · match a with
    | ⟨0, _⟩ => rfl
    | ⟨1, _⟩ => exact (DotDims.lhsIdx_val_of_single _ rfl _ _).trans hk
  · match a with
    | ⟨0, _⟩ => rfl
    | ⟨1, _⟩ => exact (DotDims.rhsIdx_val_of_single _ rfl _ _).trans hk

theorem shapeCast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

theorem row_apply (w : Vec Ideal S256 .f32) (r : Fin 2048) (e : Fin 256) :
    broadcastTo S2048x256 (shapeCast S1x256 w shapeCasts_S256_S1x256 : FVec Ideal S1x256 .f32) broadcasts_S1x256_S2048x256 (ix2 r e) = w (ix1 e) := by
  rw [broadcastTo_1b_ab_apply, shapeCast_a_1a_apply]

/-- Narrowing is the identity on the extended reals. -/
theorem affblk_apply (x0 : Vec Ideal S1x2048x256 .f32) (w b : Vec Ideal S256 .f32) (r : Fin 2048) (e : Fin 256) :
    (truncf .bf16 (addf (mulf (shapeCast S2048x256 x0 shapeCasts_S1x2048x256_S2048x256 : FVec Ideal S2048x256 .f32)
        (broadcastTo S2048x256 (shapeCast S1x256 w shapeCasts_S256_S1x256 : FVec Ideal S1x256 .f32) broadcasts_S1x256_S2048x256))
        (broadcastTo S2048x256 (shapeCast S1x256 b shapeCasts_S256_S1x256 : FVec Ideal S1x256 .f32) broadcasts_S1x256_S2048x256)) bitsLt_bf16_f32
      : FVec Ideal S2048x256 .bf16) (ix2 r e)
      = x0 (ix3 (0 : Fin 1) r e) * w (ix1 e) + b (ix1 e) := by
  rw [truncf_apply, addf_apply, mulf_apply, row_apply, row_apply, shapeCast_1ab_ab_apply]

theorem attblk_apply (a : Vec Ideal S1x1x256x256 .f32) (d e : Fin 256) :
    (truncf .bf16 (shapeCast S256x256 a shapeCasts_S1x1x256x256_S256x256 : FVec Ideal S256x256 .f32) bitsLt_bf16_f32
      : FVec Ideal S256x256 .bf16) (ix2 d e) = a (ix4 (0 : Fin 1) (0 : Fin 1) d e) := by
  rw [truncf_apply, shapeCast_11ab_ab_apply]

theorem pay2_apply (x0 : Vec Ideal S1x2048x256 .f32) (x1 x2 x3 x4 x5 : Vec Ideal S256 .f32) (x7 x8 : Vec Ideal S1x1x256x256 .f32)
    (r : Fin 2048) (d : Fin 256) :
    k1_pay2 (F := Ideal) x0 x1 x2 x3 x4 x7 x8 x5 (ix2 r d)
      = (two * ((∑ e : Fin 256, (x0 (ix3 (0 : Fin 1) r e) * x1 (ix1 e) + x2 (ix1 e)) * x7 (ix4 (0 : Fin 1) (0 : Fin 1) d e))
          + ∑ e : Fin 256, (x0 (ix3 (0 : Fin 1) r e) * x3 (ix1 e) + x4 (ix1 e)) * x8 (ix4 (0 : Fin 1) (0 : Fin 1) d e))) * x5 (ix1 d) := by
  unfold k1_pay2
  rw [mulf_apply, mulf_apply, broadcast_apply, addf_apply, mm_apply, mm_apply, row_apply]
  simp only [affblk_apply, attblk_apply]
  rfl

theorem pay1_apply (v34 : FVec Ideal S2048x256 .f32) (x6 : Vec Ideal S256 .f32) (u : Fin 1) (r : Fin 2048) (d : Fin 256) :
    k1_pay1 (F := Ideal) v34 (k1_pay3 (F := Ideal) x6) (ix3 u r d) = v34 (ix2 r d) + x6 (ix1 d) := by
  unfold k1_pay1 k1_pay3
  rw [shapeCast_ab_1ab_apply, addf_apply, row_apply]

/-- Channel (h, d) splits back into its head and sub-channel. -/
theorem outOf_at (v : Vec Ideal S2x16384x1024 .f32) (ag al : Vec Ideal S2x4x256x256 .f32) (wvg bvg wvl bvl wp bp : Vec Ideal S1024 .f32)
    (bi : Fin 2) (n : Fin 16384) (h : Fin 4) (d : Fin 256) :
    outOf v ag al wvg bvg wvl bvl wp bp (ix3 bi n (ch h d))
      = (two * (branch v wvg bvg ag bi n h d + branch v wvl bvl al bi n h d)) * wp (ix1 (ch h d)) + bp (ix1 (ch h d)) := by
  have hh : (⟨(h.val * 256 + d.val) / 256, by have := h.isLt; have := d.isLt; omega⟩ : Fin 4) = h := Fin.ext (by show (h.val * 256 + d.val) / 256 = h.val; have := d.isLt; omega)
  have hd : (⟨(h.val * 256 + d.val) % 256, Nat.mod_lt _ (by decide)⟩ : Fin 256) = d := Fin.ext (by show (h.val * 256 + d.val) % 256 = d.val; have := d.isLt; omega)
  show (two * (branch v wvg bvg ag bi n ⟨(h.val * 256 + d.val) / 256, _⟩ ⟨(h.val * 256 + d.val) % 256, _⟩
      + branch v wvl bvl al bi n ⟨(h.val * 256 + d.val) / 256, _⟩ ⟨(h.val * 256 + d.val) % 256, _⟩)) * wp (ix1 (ch h d)) + bp (ix1 (ch h d)) = _
  rw [hh, hd]

/-- The index maps at point t = (b, h, tile), b = t / 32, h = t / 8 % 4, tile = t % 8: the input and the output take block (b, tile, h), a vector block h, an attention array block (b, h, 0, 0). -/
theorem idx_q : ∀ t : Fin cfg1.N,
    win1_0.index t (0 : Fin 3) = t.val / 32 ∧ win1_0.index t (1 : Fin 3) = t.val % 8 ∧ win1_0.index t (2 : Fin 3) = t.val / 8 % 4
    ∧ win1_9.index t (0 : Fin 3) = t.val / 32 ∧ win1_9.index t (1 : Fin 3) = t.val % 8 ∧ win1_9.index t (2 : Fin 3) = t.val / 8 % 4 :=
  (by decide +kernel : ∀ t : Fin grid1.N, _)

theorem idx_w : ∀ t : Fin cfg1.N,
    win1_1.index t (0 : Fin 1) = t.val / 8 % 4 ∧ win1_2.index t (0 : Fin 1) = t.val / 8 % 4 ∧ win1_3.index t (0 : Fin 1) = t.val / 8 % 4
    ∧ win1_4.index t (0 : Fin 1) = t.val / 8 % 4 ∧ win1_5.index t (0 : Fin 1) = t.val / 8 % 4 ∧ win1_6.index t (0 : Fin 1) = t.val / 8 % 4 :=
  (by decide +kernel : ∀ t : Fin grid1.N, _)

theorem idx_a : ∀ t : Fin cfg1.N,
    win1_7.index t (0 : Fin 4) = t.val / 32 ∧ win1_7.index t (1 : Fin 4) = t.val / 8 % 4 ∧ win1_7.index t (2 : Fin 4) = 0 ∧ win1_7.index t (3 : Fin 4) = 0
    ∧ win1_8.index t (0 : Fin 4) = t.val / 32 ∧ win1_8.index t (1 : Fin 4) = t.val / 8 % 4 ∧ win1_8.index t (2 : Fin 4) = 0 ∧ win1_8.index t (3 : Fin 4) = 0 :=
  (by decide +kernel : ∀ t : Fin grid1.N, _)

variable (V : (c : Dev nD) → (b : Ref sig .tc) → Buf (Elt Ideal) ((c : Thread nD τ).loc b)) (c : Dev nD) (t : Fin cfg1.N)
  (bi : Fin 2) (h : Fin 4) (hb : bi.val = t.val / 32) (hh : h.val = t.val / 8 % 4)

/-- The specification's result from the arrays holding V. -/
abbrev specOut : Vec Ideal S2x16384x1024 .f32 :=
  outOf (V c main_arg2) (V c main_v0_0) (V c main_v0_1) (V c main_arg7) (V c main_arg8) (V c main_arg13) (V c main_arg14) (V c main_arg15) (V c main_arg16)

/-- Entry by entry, the nine input blocks of point t = (b, h, tile) are the arrays' entries of batch b, rows tile * 2048 …, head h. -/
theorem blocks (hb : bi.val = t.val / 32) (hh : h.val = t.val / 8 % 4) (r : Fin 2048) (n : Fin 16384) (hn : n.val = t.val % 8 * 2048 + r.val) (d e : Fin 256) :
    iblk1 V c 0 t (ix3 0 r e) = V c main_arg2 (ix3 bi n (ch h e))
    ∧ iblk1 V c 1 t (ix1 e) = V c main_arg7 (ix1 (ch h e)) ∧ iblk1 V c 2 t (ix1 e) = V c main_arg8 (ix1 (ch h e)) ∧ iblk1 V c 3 t (ix1 e) = V c main_arg13 (ix1 (ch h e))
    ∧ iblk1 V c 4 t (ix1 e) = V c main_arg14 (ix1 (ch h e)) ∧ iblk1 V c 5 t (ix1 e) = V c main_arg15 (ix1 (ch h e)) ∧ iblk1 V c 6 t (ix1 e) = V c main_arg16 (ix1 (ch h e))
    ∧ iblk1 V c 7 t (ix4 0 0 d e) = V c main_v0_0 (ix4 bi h d e) ∧ iblk1 V c 8 t (ix4 0 0 d e) = V c main_v0_1 (ix4 bi h d e) := by
  obtain ⟨q0, q1, q2, -⟩ := idx_q t
  obtain ⟨w1, w2, w3, w4, w5, w6⟩ := idx_w t
  obtain ⟨a0, a1, a2, a3, a4, a5, a6, a7⟩ := idx_a t
  have k1 : ∀ (j : S1024.Idx) {x : ℕ}, x = t.val / 8 % 4 → (j 0).val = x * 256 + 1 * e.val → j = ix1 (ch h e) := fun j x hx hj =>
    funext fun a => Fin.ext (match a with | ⟨0, _⟩ => hj.trans (by show _ = h.val * 256 + e.val; omega))
  have k4 : ∀ (j : S2x4x256x256.Idx) {x0 x1 x2 x3 : ℕ}, x0 = t.val / 32 → x1 = t.val / 8 % 4 → x2 = 0 → x3 = 0 → (j 0).val = x0 * 1 + 1 * 0 → (j 1).val = x1 * 1 + 1 * 0
      → (j 2).val = x2 * 256 + 1 * d.val → (j 3).val = x3 * 256 + 1 * e.val → j = ix4 bi h d e := fun j _ _ _ _ h0 h1 h2 h3 g0 g1 g2 g3 =>
    funext fun a => Fin.ext (match a with | ⟨0, _⟩ => g0.trans (by show _ = bi.val; omega) | ⟨1, _⟩ => g1.trans (by show _ = h.val; omega) | ⟨2, _⟩ => g2.trans (by show _ = d.val; omega) | ⟨3, _⟩ => g3.trans (by show _ = e.val; omega))
  refine ⟨congrArg (V c main_arg2) (funext fun a => Fin.ext ?_), congrArg (V c main_arg7) (k1 _ w1 rfl), congrArg (V c main_arg8) (k1 _ w2 rfl), congrArg (V c main_arg13) (k1 _ w3 rfl),
    congrArg (V c main_arg14) (k1 _ w4 rfl), congrArg (V c main_arg15) (k1 _ w5 rfl), congrArg (V c main_arg16) (k1 _ w6 rfl),
    congrArg (V c main_v0_0) (k4 _ a0 a1 a2 a3 rfl rfl rfl rfl), congrArg (V c main_v0_1) (k4 _ a4 a5 a6 a7 rfl rfl rfl rfl)⟩
  match a with
  | ⟨0, _⟩ => show win1_0.index t (0 : Fin 3) * 1 + 1 * 0 = bi.val; omega
  | ⟨1, _⟩ => show win1_0.index t (1 : Fin 3) * 2048 + 1 * r.val = n.val; omega
  | ⟨2, _⟩ => show win1_0.index t (2 : Fin 3) * 256 + 1 * e.val = h.val * 256 + e.val; omega

/-- Entry (r, d) stored at point (b, h, tile) is the specification's at (b, tile * 2048 + r, (h, d)). -/
theorem point_eq (hb : bi.val = t.val / 32) (hh : h.val = t.val / 8 % 4) (u : Fin 1) (r : Fin 2048) (d : Fin 256) (n : Fin 16384) (hn : n.val = t.val % 8 * 2048 + r.val) :
    (dat1 V c).after 9 t (ix3 u r d) = specOut V c (ix3 bi n (ch h d)) := by
  dsimp only [dat1, specOut]
  rw [outOf_at, pay1_apply, pay2_apply]
  unfold branch aff
  simp only [blocks V c t bi h hb hh r n hn d]

theorem flushed_eq : (dat1 V c).flushed 9 t = ((cfg1.win 9).blk t).view.read (Elt Ideal) (specOut V c) := by
  funext y
  obtain ⟨-, -, -, f0, f1, f2⟩ := idx_q t
  have hN : cfg1.N = 64 := N_1
  have ht := t.isLt
  have hy0 : (y 0).val < 1 := (y 0).isLt
  have hy1 : (y 1).val < 2048 := (y 1).isLt
  have hy2 : (y 2).val < 256 := (y 2).isLt
  have hj : ((cfg1.win 9).blk t).view.emb y = ix3 (⟨t.val / 32, by omega⟩ : Fin 2) (⟨t.val % 8 * 2048 + (y 1).val, by omega⟩ : Fin 16384) (ch ⟨t.val / 8 % 4, by omega⟩ ⟨(y 2).val, hy2⟩) :=
    funext fun a => Fin.ext (by
      match a with
      | ⟨0, _⟩ => show win1_9.index t (0 : Fin 3) * 1 + 1 * (y 0).val = t.val / 32; omega
      | ⟨1, _⟩ => show win1_9.index t (1 : Fin 3) * 2048 + 1 * (y 1).val = t.val % 8 * 2048 + (y 1).val; omega
      | ⟨2, _⟩ => show win1_9.index t (2 : Fin 3) * 256 + 1 * (y 2).val = t.val / 8 % 4 * 256 + (y 2).val; omega)
  show (dat1 V c).after 9 t ((cfg1.win 9).xinj (grid1.coords t) y) = specOut V c (((cfg1.win 9).blk t).view.emb y)
  rw [eq_ix3 ((cfg1.win 9).xinj (grid1.coords t) y), hj]
  exact point_eq V c t _ _ rfl rfl _ _ _ _ rfl

theorem mem_blk (i : S2x16384x1024.Idx) :
    i ∈ ((cfg1.win 9).blk t).view.set ↔ ∀ a : Fin 3, win1_9.index t a * S1x2048x256.size a ≤ (i a).val ∧ (i a).val < win1_9.index t a * S1x2048x256.size a + S1x2048x256.size a := by
  show i ∈ ((View.whole main_v1).slice (win1_9.rect t)).set ↔ _
  rw [View.set_slice_whole, Rect.mem_set_unit]
  exact Iff.rfl

/-- Index (b, n, cc) lies in the block of point ((b * 4 + cc / 256) * 8 + n / 2048). -/
theorem cover (i : S2x16384x1024.Idx) : ∃ t : Fin cfg1.N, (cfg1.win 9).flush t = true ∧ i ∈ ((cfg1.win 9).blk t).view.set := by
  have hN : cfg1.N = 64 := N_1
  have h0 : (i 0).val < 2 := (i 0).isLt
  have h1 : (i 1).val < 16384 := (i 1).isLt
  have h2 : (i 2).val < 1024 := (i 2).isLt
  obtain ⟨t, ht⟩ : ∃ t : Fin cfg1.N, t.val = ((i 0).val * 4 + (i 2).val / 256) * 8 + (i 1).val / 2048 := ⟨⟨_, by omega⟩, rfl⟩
  refine ⟨t, flush1_9 t, ?_⟩
  obtain ⟨-, -, -, f0, f1, f2⟩ := idx_q t
  rw [mem_blk]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 2048 ≤ (i 1).val ∧ (i 1).val < win1_9.index t (1 : Fin 3) * 2048 + 2048; omega
  | ⟨2, _⟩ => show win1_9.index t (2 : Fin 3) * 256 ≤ (i 2).val ∧ (i 2).val < win1_9.index t (2 : Fin 3) * 256 + 256; omega

end R1

open R1 in
/-- The 64 blocks tile the result, and each is written once with its block of the specification's result. -/
theorem out_eq (V : (c : Dev nD) → (b : Ref sig .tc) → Buf (Elt Ideal) ((c : Thread nD τ).loc b)) (c : Dev nD) :
    (dat1 (F := Ideal) V c).arrAt 9 cfg1.N
      = outOf (V c main_arg2) (V c main_v0_0) (V c main_v0_1) (V c main_arg7) (V c main_arg8) (V c main_arg13) (V c main_arg14) (V c main_arg15) (V c main_arg16) :=
  (dat1 (F := Ideal) V c).arrAt_eq_of_cover 9 (specOut V c) (fun t _ => flushed_eq V c t) cover

end Cert.KernelIdeal.Val

end
-- ==== Proof.KI.Value.lean ====
import proofs.«120010_j12481174962634_1_alg».proof.Proof.KI.Run
import proofs.«120010_j12481174962634_1_alg».proof.Proof.KI.R0Val
import proofs.«120010_j12481174962634_1_alg».proof.Proof.KI.R1Val
import proofs.«120010_j12481174962634_1_alg».proof.Proof.Spec

noncomputable section

namespace Cert.KernelIdeal.Val

open Cert.KernelIdeal Cert.KernelIdeal.Gen Cert.KernelIdeal.Fr
open Idealize.ShloMosaic Idealize.ShloMosaic.TcCoe

variable (m : (ℓ : Loc nD τ sig) → Buf (Elt Ideal) ℓ) (c : Dev nD)

abbrev arg (b : Ref sig .tc) : Buf (Elt Ideal) ((c.tc : Thread nD τ).loc b) := m ((c.tc : Thread nD τ).loc b)

-- Region 1's output is the result formula of v and the attention matrices region 0 left; every other operand is the launch memory's.
theorem result_eq : (dat1 (F := Ideal) (V1 m) c).arrAt 9 cfg1.N
      = Cert.Spec.G (arg m c main_arg0) (arg m c main_arg1) (arg m c main_arg2) (arg m c main_arg3) (arg m c main_arg4) (arg m c main_arg5)
        (arg m c main_arg6) (arg m c main_arg7) (arg m c main_arg8) (arg m c main_arg9) (arg m c main_arg10) (arg m c main_arg11)
        (arg m c main_arg12) (arg m c main_arg13) (arg m c main_arg14) (arg m c main_arg15) (arg m c main_arg16) := by
  rw [out_eq (V1 m) c]
  unfold Cert.Spec.G
  rw [V1_arr m c 10, V1_arr m c 11, attnG_eq (V0 m) c, attnL_eq (V0 m) c,
    V1_of_ne m c main_arg2 (by decide), V1_of_ne m c main_arg7 (by decide), V1_of_ne m c main_arg8 (by decide),
    V1_of_ne m c main_arg13 (by decide), V1_of_ne m c main_arg14 (by decide), V1_of_ne m c main_arg15 (by decide),
    V1_of_ne m c main_arg16 (by decide)]

end Cert.KernelIdeal.Val

end
-- ==== Proof.RefG.lean ====
import proofs.«120010_j12481174962634_1_alg».proof.Proof.Gen.ReferenceIdeal.Read
import proofs.«120010_j12481174962634_1_alg».proof.Proof.Spec

noncomputable section

namespace Cert.RefG

open Cert.ReferenceIdeal Cert.ReferenceIdeal.Gen Cert.ReferenceIdeal.Read Cert.Spec
open Idealize.ShloMosaic Idealize.ShloMosaic.ValueIdx

variable (x q k v : FVec Ideal SQ .f32) (w b wq bq wk bk wv bv : FVec Ideal SW .f32)
  (bi : Fin 2) (h : Fin 4) (d e : Fin 256) (n : Fin 16384) (cc : Fin 1024)

theorem v21_eq : val_main_v21 (F := Ideal) x w b = val_main_v19 (F := Ideal) x w b := rfl
theorem v23_eq : val_main_v23 (F := Ideal) x w b = val_main_v19 (F := Ideal) x w b := rfl
theorem v81_eq : val_main_v81 (F := Ideal) q k v wq bq wk bk wv bv = val_main_v40 (F := Ideal) q k v wq bq wk bk wv bv := rfl

theorem aff_eq : val_main_v5 (F := Ideal) x w b (ix3 bi n cc) = aff x w b bi n cc := by
  have e1 : idx_main_v0 (idx_main_v1 (ix3 bi n cc)) = ix1 cc := eq_ix1 _
  have e2 : idx_main_v3 (idx_main_v4 (ix3 bi n cc)) = ix1 cc := eq_ix1 _
  rw [val_main_v5_apply, val_main_v2_apply, val_main_v1_apply, val_main_v0_apply, val_main_v4_apply, val_main_v3_apply, e1, e2]
  rfl

theorem head_eq : val_main_v19 (F := Ideal) x w b (ix4 bi h d n) = aff x w b bi n (ch h d) := by
  have e : idx_main_v18 (idx_main_v19 (ix4 bi h d n)) = ix3 bi n (ch h d) :=
    funext fun a => Fin.ext (by
      have h0 := bi.isLt; have h1 := n.isLt; have h2 := h.isLt; have h3 := d.isLt
      match a with
      | ⟨0, _⟩ => show (((bi.val * 16384 + n.val) * 4 + h.val) * 256 + d.val) / 16777216 = bi.val; omega
      | ⟨1, _⟩ => show (((bi.val * 16384 + n.val) * 4 + h.val) * 256 + d.val) / 1024 % 16384 = n.val; omega
      | ⟨2, _⟩ => show (((bi.val * 16384 + n.val) * 4 + h.val) * 256 + d.val) % 1024 = h.val * 256 + d.val; omega)
  rw [val_main_v19_apply, val_main_v18_apply, e, aff_eq]

theorem score_eq : val_main_v24 (F := Ideal) q k wq bq wk bk (ix4 bi h d e) = score q k wq bq wk bk bi h d e := by
  rw [val_main_v24_apply]
  unfold score
  refine Finset.sum_congr rfl fun n _ => ?_
  have el : lidx_main_v24 (ix4 bi h d e) n = ix4 bi h d n := eq_ix4 _
  have er : ridx_main_v24 (ix4 bi h d e) n = ix4 bi h e n := eq_ix4 _
  rw [el, er, v21_eq, head_eq, head_eq]

def zrow : Fin 256 → EReal := fun e => score q k wq bq wk bk bi h d e * scale

theorem scaled_eq : val_main_v26 (F := Ideal) q k wq bq wk bk (ix4 bi h d e) = zrow q k wq bq wk bk bi h d e := by
  rw [val_main_v26_apply, score_eq, val_main_v25_apply, val_main_cst_apply]
  rfl

theorem red3 : S2x4x256x256.Reduces [3] S2x4x256 := by decide

theorem rowMax_eq : val_main_v29 (F := Ideal) q k wq bq wk bk (ix3 bi h d) = rowMax (zrow q k wq bq wk bk bi h d) := by
  rw [val_main_v29_apply, val_main_v28_apply, val_main_cst_1_apply]
  unfold val_main_v27
  rw [Host.reduce_eq_fold_single FloatOps.maximumf _ _ reducesTo_S2x4x256x256_S2x4x256_d3 red3 h_S_]
  have ez : (val_main_v26 (F := Ideal) q k wq bq wk bk ∘ red3.lift (ix3 bi h d)) = zrow q k wq bq wk bk bi h d :=
    funext fun (e : Fin 256) => by
      have el : red3.lift (ix3 bi h d) e = ix4 bi h d e := eq_ix4 _
      show val_main_v26 (F := Ideal) q k wq bq wk bk (red3.lift (ix3 bi h d) e) = _
      rw [el, scaled_eq]
  rw [ez]
  rfl

theorem exp_eq : val_main_v33 (F := Ideal) q k wq bq wk bk (ix4 bi h d e)
      = Ideal.exp (zrow q k wq bq wk bk bi h d e - rowMax (zrow q k wq bq wk bk bi h d)) := by
  have ei : idx_main_v30 (idx_main_v31 (ix4 bi h d e)) = ix3 bi h d := eq_ix3 _
  rw [val_main_v33_apply, val_main_v32_apply, scaled_eq, val_main_v31_apply, val_main_v30_apply, ei, rowMax_eq,
    Ideal.hostUnary_exp_def, Ideal.subf_def]

theorem expSum_eq : val_main_v34 (F := Ideal) q k wq bq wk bk (ix3 bi h d)
      = ∑ e : Fin 256, Ideal.exp (zrow q k wq bq wk bk bi h d e - rowMax (zrow q k wq bq wk bk bi h d)) := by
  rw [val_main_v34_apply, val_main_cst_2_apply]
  show Ideal.ofBits .f32 0x00000000#32 + _ = _
  rw [Ideal.ofBits_zero_f32, zero_add]
  refine Finset.sum_congr rfl fun e _ => ?_
  have ei : idx_main_v34 (ix3 bi h d) e = ix4 bi h d e := eq_ix4 _
  rw [ei, exp_eq]

theorem attn_eq : val_main_v37 (F := Ideal) q k wq bq wk bk (ix4 bi h d e) = attn q k wq bq wk bk (ix4 bi h d e) := by
  have ei : idx_main_v35 (idx_main_v36 (ix4 bi h d e)) = ix3 bi h d := eq_ix3 _
  rw [val_main_v37_apply, exp_eq, val_main_v36_apply, val_main_v35_apply, ei, expSum_eq,
    Ideal.hostDivf_def]
  rfl

theorem contract_eq : val_main_v38 (F := Ideal) q k v wq bq wk bk wv bv (ix4 bi h d n)
      = branch v wv bv (attn q k wq bq wk bk) bi n h d := by
  rw [val_main_v38_apply]
  unfold branch
  refine Finset.sum_congr rfl fun e _ => ?_
  have el : lidx_main_v38 (ix4 bi h d n) e = ix4 bi h d e := eq_ix4 _
  have er : ridx_main_v38 (ix4 bi h d n) e = ix4 bi h e n := eq_ix4 _
  rw [el, er, attn_eq, v23_eq, head_eq, mul_comm]

theorem branch_eq : val_main_v40 (F := Ideal) q k v wq bq wk bk wv bv (ix3 bi n cc)
      = branch v wv bv (attn q k wq bq wk bk) bi n ⟨cc.val / 256, by omega⟩ ⟨cc.val % 256, by omega⟩ := by
  have e : idx_main_v39 (idx_main_v40 (ix3 bi n cc)) = ix4 bi ⟨cc.val / 256, by omega⟩ ⟨cc.val % 256, by omega⟩ n :=
    funext fun a => Fin.ext (by
      have h0 := bi.isLt; have h1 := n.isLt; have h2 := cc.isLt
      match a with
      | ⟨0, _⟩ => show ((bi.val * 16384 + n.val) * 1024 + cc.val) / 16777216 = bi.val; omega
      | ⟨1, _⟩ => show ((bi.val * 16384 + n.val) * 1024 + cc.val) / 256 % 4 = cc.val / 256; omega
      | ⟨2, _⟩ => show ((bi.val * 16384 + n.val) * 1024 + cc.val) % 256 = cc.val % 256; omega
      | ⟨3, _⟩ => show ((bi.val * 16384 + n.val) * 1024 + cc.val) / 1024 % 16384 = n.val; omega)
  rw [val_main_v40_apply, val_main_v39_apply, e, contract_eq]

theorem val_eq_G (x0 x1 x2 : FVec Ideal Cert.Spec.SQ .f32) (x3 x4 x5 x6 x7 x8 x9 x10 x11 x12 x13 x14 x15 x16 : FVec Ideal Cert.Spec.SW .f32) :
    Cert.ReferenceIdeal.Read.val_main_v90 (F := Ideal) x0 x1 x2 x3 x4 x5 x6 x7 x8 x9 x10 x11 x12 x13 x14 x15 x16
      = Cert.Spec.G x0 x1 x2 x3 x4 x5 x6 x7 x8 x9 x10 x11 x12 x13 x14 x15 x16 := by
  funext i
  obtain ⟨bi, n, cc, rfl⟩ : ∃ (bi : Fin 2) (n : Fin 16384) (cc : Fin 1024), i = ix3 bi n cc := ⟨i 0, i 1, i 2, eq_ix3 i⟩
  have ep : idx_main_v85 (idx_main_v86 (ix3 bi n cc)) = ix1 cc := eq_ix1 _
  have eb : idx_main_v88 (idx_main_v89 (ix3 bi n cc)) = ix1 cc := eq_ix1 _
  rw [val_main_v90_apply, val_main_v87_apply, val_main_v84_apply, val_main_v83_apply, val_main_cst_7_apply,
    val_main_v82_apply, v81_eq, branch_eq, branch_eq, val_main_v86_apply, val_main_v85_apply, ep,
    val_main_v89_apply, val_main_v88_apply, eb]
  rfl

end Cert.RefG

end
-- ==== Proof.lean ====
import proofs.«120010_j12481174962634_1_alg».proof.Defs
import proofs.«120010_j12481174962634_1_alg».proof.Proof.Frames
import proofs.«120010_j12481174962634_1_alg».proof.Proof.KI.Value
import proofs.«120010_j12481174962634_1_alg».proof.Proof.RefG
import proofs.«120010_j12481174962634_1_alg».proof.Proof.Gen.Kernel
import proofs.«120010_j12481174962634_1_alg».proof.Proof.Gen.KernelIdeal
import proofs.«120010_j12481174962634_1_alg».proof.Proof.Gen.ReferenceIdeal
import proofs.«120010_j12481174962634_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

-- Each side's result is the function G of its arguments, and the arguments agree.
theorem algebraic : Cert.algebraic_KernelIdeal_ReferenceIdeal := fun m ρ m' ρ' _ hagree =>
  ⟨fun c => (Cert.KernelIdeal.Fr.dat1 (Cert.KernelIdeal.Fr.V1 m) c).arrAt 9 Cert.KernelIdeal.cfg1.N,
    (θ_run Cert.KernelIdeal.defs _ _).mono
      (fun _ h c => ⟨Cert.KernelIdeal.Fr.res_end m c (h c),
        by and_intros <;> exact Cert.KernelIdeal.Fr.arg_kept m c (h c) _ (by decide)⟩)
      (Cert.KernelIdeal.Fr.run_all (F := Ideal) m ρ),
    (θ_run Cert.ReferenceIdeal.defs _ _).mono (fun _ h c => ⟨(h c).1.trans (Eq.trans (by
        rw [Cert.ReferenceIdeal.Read.val_main_v90_eq, Cert.RefG.val_eq_G]
        simp only [Cert.KernelIdeal.Val.arg, hagree c]) (Cert.KernelIdeal.Val.result_eq m c).symm), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_finite_inputs.Gen.facts,
  Frames.frame_k, Frames.frame_ki, Frames.frame_ri, trivial, algebraic⟩

end Cert.Proof

end
